-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S60x256 : Shape := ⟨2, ![60, 256]⟩
abbrev S60 : Shape := ⟨1, ![60]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S60x256 : S_.BroadcastsInDim S60x256 (![] : Fin 0 → Fin S60x256.rank)
  reducesTo_S60x256_S_d0_1 : S60x256.ReducesTo [0, 1] S_
  bcast_S_S60 : S_.BroadcastsInDim S60 (![] : Fin 0 → Fin S60.rank)
  reducesTo_S60_S_d0 : S60.ReducesTo [0] S_

variable [Facts]

def fn_part1 {F : FTy → Type} [FloatOps F] (main_arg6 : FVec F S256 .f32) (main_arg7 : FVec F S60x256 .f32) (main_arg8 : FVec F S60 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S60x256 .f32 := Host.absf main_arg7
  let main_cst_8 : FVec F S_ .f32 := constant S_ .f32 0x7F800000#32
  let main_v25 : FVec F S60x256 .f32 := broadcastInDim S60x256 ![] bcast_S_S60x256 main_cst_8
  let main_v26 : IVec S60x256 1 := cmpf .olt main_v24 main_v25
  let main_c_9 : IVec S_ 1 := constantI S_ 1 1#1
  let main_v27 : IVec S_ 1 := (fun x v => Host.reduce IntOp.andi x v reducesTo_S60x256_S_d0_1 h_S_) main_v26 main_c_9
  let main_v28 : IVec S_ 1 := andi main_v23 main_v27
  let main_v29 : FVec F S60 .f32 := Host.absf main_arg8
  let main_cst_10 : FVec F S_ .f32 := constant S_ .f32 0x7F800000#32
  let main_v30 : FVec F S60 .f32 := broadcastInDim S60 ![] bcast_S_S60 main_cst_10
  let main_v31 : IVec S60 1 := cmpf .olt main_v29 main_v30
  let main_c_11 : IVec S_ 1 := constantI S_ 1 1#1
  let main_v32 : IVec S_ 1 := (fun x v => Host.reduce IntOp.andi x v reducesTo_S60_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : IVec S50000 32) (main_arg3 : FVec F S256x256 .f32) (main_arg4 : FVec F S256 .f32) (main_arg5 : FVec F S256 .f32) (main_arg6 : FVec F S256 .f32) (main_arg7 : FVec F S60x256 .f32) (main_arg8 : FVec F S60 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S60x256 : Shape := ⟨2, ![60, 256]⟩
abbrev S60 : Shape := ⟨1, ![60]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x256 : Shape := ⟨2, ![5000, 256]⟩
abbrev S5000x1 : Shape := ⟨2, ![5000, 1]⟩
abbrev S850000x256 : Shape := ⟨2, ![850000, 256]⟩
abbrev S1x256 : Shape := ⟨2, ![1, 256]⟩
abbrev S5000x128 : Shape := ⟨2, ![5000, 128]⟩
abbrev S1x128 : Shape := ⟨2, ![1, 128]⟩
abbrev S128 : Shape := ⟨1, ![128]⟩
abbrev S64 : Shape := ⟨1, ![64]⟩
abbrev S1x64 : Shape := ⟨2, ![1, 64]⟩
abbrev S50000x64 : Shape := ⟨2, ![50000, 64]⟩
abbrev S64x256 : Shape := ⟨2, ![64, 256]⟩
abbrev S5000x64 : Shape := ⟨2, ![5000, 64]⟩
abbrev S64x128 : Shape := ⟨2, ![64, 128]⟩
abbrev S64x1 : Shape := ⟨2, ![64, 1]⟩
abbrev S1x60 : Shape := ⟨2, ![1, 60]⟩
abbrev S64x60 : Shape := ⟨2, ![64, 60]⟩

abbrev nBuf : Space → Nat
  | .hbm => 81
  | .vmem => 42
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S60x256, .f32⟩
  | .hbm, ⟨8, _⟩ => ⟨S60, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S_, .f32⟩
  | .hbm, ⟨27, _⟩ => ⟨S850000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x256, .f32⟩
  | .hbm, ⟨39, _⟩ => ⟨S50000x256, .bf16⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x256, .bf16⟩
  | .hbm, ⟨49, _⟩ => ⟨S850000x256, .f32⟩
  | .hbm, ⟨50, _⟩ => ⟨S_, .f32⟩
  | .hbm, ⟨51, _⟩ => ⟨S50000x256, .f32⟩
  | .hbm, ⟨52, _⟩ => ⟨S850000x1, .i32⟩
  | .hbm, ⟨53, _⟩ => ⟨S50000x256, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S50000x1, .i32⟩
  | .hbm, ⟨60, _⟩ => ⟨S64, .i32⟩
  | .hbm, ⟨61, _⟩ => ⟨S1x64, .i32⟩
  | .hbm, ⟨62, _⟩ => ⟨S50000x64, .i32⟩
  | .hbm, ⟨63, _⟩ => ⟨S50000x64, .i32⟩
  | .hbm, ⟨64, _⟩ => ⟨S50000x64, .i1⟩
  | .hbm, ⟨65, _⟩ => ⟨S50000x64, .bf16⟩
  | .hbm, ⟨66, _⟩ => ⟨S_, .f32⟩
  | .hbm, ⟨67, _⟩ => ⟨S50000, .f32⟩
  | .hbm, ⟨68, _⟩ => ⟨S_, .f32⟩
  | .hbm, ⟨69, _⟩ => ⟨S64, .f32⟩
  | .hbm, ⟨70, _⟩ => ⟨S50000x1, .i32⟩
  | .hbm, ⟨71, _⟩ => ⟨S64, .f32⟩
  | .hbm, ⟨72, _⟩ => ⟨S64x256, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S64x1, .f32⟩
  | .hbm, ⟨77, _⟩ => ⟨S64x256, .f32⟩
  | .hbm, ⟨78, _⟩ => ⟨S64x256, .f32⟩
  | .hbm, ⟨79, _⟩ => ⟨S1x60, .f32⟩
  | .hbm, ⟨80, _⟩ => ⟨S64x60, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x64, .bf16⟩
  | .local _ .vmem, ⟨34, _⟩ => ⟨S5000x64, .bf16⟩
  | .local _ .vmem, ⟨35, _⟩ => ⟨S64x128, .f32⟩
  | .local _ .vmem, ⟨36, _⟩ => ⟨S64x128, .f32⟩
  | .local _ .vmem, ⟨37, _⟩ => ⟨S64x128, .f32⟩
  | .local _ .vmem, ⟨38, _⟩ => ⟨S64x256, .f32⟩
  | .local _ .vmem, ⟨39, _⟩ => ⟨S60x256, .f32⟩
  | .local _ .vmem, ⟨40, _⟩ => ⟨S1x60, .f32⟩
  | .local _ .vmem, ⟨41, _⟩ => ⟨S64x60, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc2_stg8_1 : Ref sig .tc := ⟨.vmem, 36, rfl⟩
abbrev cc2_scratch0 : Ref sig .tc := ⟨.vmem, 37, rfl⟩
abbrev cc3_stg0_0 : Ref sig .tc := ⟨.vmem, 38, rfl⟩
abbrev cc3_stg1_0 : Ref sig .tc := ⟨.vmem, 39, rfl⟩
abbrev cc3_stg2_0 : Ref sig .tc := ⟨.vmem, 40, rfl⟩
abbrev cc3_stg3_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem6_1 : DmaSem sig := 30
abbrev cc2_sem7_0 : DmaSem sig := 31
abbrev cc2_sem7_1 : DmaSem sig := 32
abbrev cc2_sem8_0 : DmaSem sig := 33
abbrev cc2_sem8_1 : DmaSem sig := 34
abbrev cc3_sem0_0 : DmaSem sig := 35
abbrev cc3_sem1_0 : DmaSem sig := 36
abbrev cc3_sem2_0 : DmaSem sig := 37
abbrev cc3_sem3_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S5000x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S64x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S60x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x60 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x60 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bcast_S_S50000x256 : S_.BroadcastsInDim S50000x256 (![] : Fin 0 → Fin S50000x256.rank)
  shapeCasts_S256_S1x256 : S256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  broadcasts_S1x128_S5000x128 : S1x128.Broadcasts S5000x128
  reduces_S5000x128_S128 : S5000x128.Reduces [0] S128
  shapeCasts_S128_S1x128 : S128.ShapeCasts S1x128
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  bcast_S_S64 : S_.BroadcastsInDim S64 (![] : Fin 0 → Fin S64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  shapeCasts_S60_S1x60 : S60.ShapeCasts S1x60
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S60x256_S60x256_0_0 : ∀ a, (![0, 0] : Fin 2 → Nat) a + S60x256.size a ≤ S60x256.size a
  h_S60x256 : 0 < S60x256.numel
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S64x60 : S1x60.Broadcasts S64x60
  reduces_S64x60_S64 : S64x60.Reduces [1] S64
  shapeCasts_S64_S64x1 : S64.ShapeCasts S64x1
  broadcasts_S64x1_S64x60 : S64x1.Broadcasts S64x60
  inb_S64x60_S64x60_0_0 : ∀ a, (![0, 0] : Fin 2 → Nat) a + S64x60.size a ≤ S64x60.size a
  h_S64x60 : 0 < S64x60.numel
  scatter_S50000_S850000x1_S850000_n_0_0_1_wf : ScatterDims.WF S50000 S850000x1 S850000 [] [0] [0] 1
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64_S50000x1_S50000_n_0_0_1_wf : ScatterDims.WF S64 S50000x1 S50000 [] [0] [0] 1
  dot_S5000x64_S5000x128_S64x128_0_0_1_1_n_n_wf : DotDims.WF S5000x64 S5000x128 S64x128 [0] [0] [1] [1] [] []
  dot_S64x256_S60x256_S64x60_1_1_0_0_n_n_wf : DotDims.WF S64x256 S60x256 S64x60 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x256.size a
  hwx1_0 : ∀ i : grid1.Coords, EltTy.bits .f32 = 32 ∨ (Rect.block (s := S50000x256) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x256.size a
  hwx1_2 : ∀ i : grid1.Coords, EltTy.bits .f32 = 32 ∨ (Rect.block (s := S1x256) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x256.size a
  hwx1_3 : ∀ i : grid1.Coords, EltTy.bits .f32 = 32 ∨ (Rect.block (s := S1x256) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x256.size a
  hwx1_4 : ∀ i : grid1.Coords, EltTy.bits .f32 = 32 ∨ (Rect.block (s := S1x256) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x256.size a
  hwx2_0 : ∀ i : grid2.Coords, EltTy.bits .f32 = 32 ∨ (Rect.block (s := S50000x256) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x256.size a
  hwx2_2 : ∀ i : grid2.Coords, EltTy.bits .f32 = 32 ∨ (Rect.block (s := S1x256) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x256.size a
  hwx2_3 : ∀ i : grid2.Coords, EltTy.bits .f32 = 32 ∨ (Rect.block (s := S1x256) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x256.size a
  hwx2_4 : ∀ i : grid2.Coords, EltTy.bits .f32 = 32 ∨ (Rect.block (s := S1x256) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x256.size a
  hwx2_5 : ∀ i : grid2.Coords, EltTy.bits .f32 = 32 ∨ (Rect.block (s := S1x256) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x256.size a
  hwx2_6 : ∀ i : grid2.Coords, EltTy.bits .f32 = 32 ∨ (Rect.block (s := S1x256) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .bf16 = 32 ∨ (Rect.block (s := S50000x64) S5000x64.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S64x128.size a ≤ S64x256.size a
  hwx2_8 : ∀ i : grid2.Coords, EltTy.bits .f32 = 32 ∨ (Rect.block (s := S64x256) S64x128.size (cc2_transform_8 i) (hinb2_8 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x256.size a ≤ S64x256.size a
  hwx3_0 : ∀ i : grid3.Coords, EltTy.bits .f32 = 32 ∨ (Rect.block (s := S64x256) S64x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S60x256.size a ≤ S60x256.size a
  hwx3_1 : ∀ i : grid3.Coords, EltTy.bits .f32 = 32 ∨ (Rect.block (s := S60x256) S60x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x60.size a ≤ S1x60.size a
  hwx3_2 : ∀ i : grid3.Coords, EltTy.bits .f32 = 32 ∨ (Rect.block (s := S1x60) S1x60.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x60.size a ≤ S64x60.size a
  hwx3_3 : ∀ i : grid3.Coords, EltTy.bits .f32 = 32 ∨ (Rect.block (s := S64x60) S64x60.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x256_S60x256_S64x60_1_1_0_0_n_n : DotDims S64x256 S60x256 S64x60 where
  lhsContracting := [1]
  rhsContracting := [1]
  lhsNonContracting := [0]
  rhsNonContracting := [0]
  lhsBatch := []
  rhsBatch := []
  wf := dot_S64x256_S60x256_S64x60_1_1_0_0_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37_0) S1x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v37_1) S1x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37_0) S1x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37_1) S1x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v44) S5000x64.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v49) S64x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v54) S64x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S60x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x60.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S64x60.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S60x256 : Shape := ⟨2, ![60, 256]⟩
abbrev S60 : Shape := ⟨1, ![60]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S256x60 : Shape := ⟨2, ![256, 60]⟩
abbrev S64x60 : Shape := ⟨2, ![64, 60]⟩
abbrev S1x60 : Shape := ⟨2, ![1, 60]⟩

abbrev nBuf : Space → Nat
  | .hbm => 159
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x256, .f32⟩
  | 4 => ⟨S256, .f32⟩
  | 5 => ⟨S256, .f32⟩
  | 6 => ⟨S256, .f32⟩
  | 7 => ⟨S60x256, .f32⟩
  | 8 => ⟨S60, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S_, .f32⟩
  | 27 => ⟨S850000, .f32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x256, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S256, .f32⟩
  | 78 => ⟨S_, .f32⟩
  | 79 => ⟨S256, .f32⟩
  | 80 => ⟨S256, .f32⟩
  | 81 => ⟨S_, .i32⟩
  | 82 => ⟨S_, .f32⟩
  | 83 => ⟨S256, .f32⟩
  | 84 => ⟨S1x256, .f32⟩
  | 85 => ⟨S_, .f32⟩
  | 86 => ⟨S1x256, .f32⟩
  | 87 => ⟨S1x256, .f32⟩
  | 88 => ⟨S50000x256, .f32⟩
  | 89 => ⟨S50000x256, .f32⟩
  | 90 => ⟨S50000x256, .f32⟩
  | 91 => ⟨S_, .f32⟩
  | 92 => ⟨S_, .f32⟩
  | 93 => ⟨S_, .f32⟩
  | 94 => ⟨S_, .f32⟩
  | 95 => ⟨S256, .f32⟩
  | 96 => ⟨S256, .f32⟩
  | 97 => ⟨S256, .f32⟩
  | 98 => ⟨S_, .f32⟩
  | 99 => ⟨S_, .i1⟩
  | 100 => ⟨S_, .f32⟩
  | 101 => ⟨S_, .f32⟩
  | 102 => ⟨S256, .f32⟩
  | 103 => ⟨S256, .f32⟩
  | 104 => ⟨S1x256, .f32⟩
  | 105 => ⟨S50000x256, .f32⟩
  | 106 => ⟨S50000x256, .f32⟩
  | 107 => ⟨S1x256, .f32⟩
  | 108 => ⟨S50000x256, .f32⟩
  | 109 => ⟨S50000x256, .f32⟩
  | 110 => ⟨S_, .f32⟩
  | 111 => ⟨S256, .f32⟩
  | 112 => ⟨S256, .f32⟩
  | 113 => ⟨S256, .f32⟩
  | 114 => ⟨S1x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S_, .f32⟩
  | 124 => ⟨S64x256, .f32⟩
  | 125 => ⟨S50000x1, .i32⟩
  | 126 => ⟨S64x256, .f32⟩
  | 127 => ⟨S_, .f32⟩
  | _ => ⟨S50000x256, .f32⟩

abbrev hbmTy0_1 (i : Nat) : BufTy := match i % 128 with
  | 0 => ⟨S50000, .f32⟩
  | 1 => ⟨S_, .f32⟩
  | 2 => ⟨S64, .f32⟩
  | 3 => ⟨S50000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x256, .f32⟩
  | 10 => ⟨S64x256, .f32⟩
  | 11 => ⟨S256x60, .f32⟩
  | 12 => ⟨S64x60, .f32⟩
  | 13 => ⟨S1x60, .f32⟩
  | 14 => ⟨S64x60, .f32⟩
  | 15 => ⟨S64x60, .f32⟩
  | 16 => ⟨S_, .f32⟩
  | 17 => ⟨S64, .f32⟩
  | 18 => ⟨S_, .f32⟩
  | 19 => ⟨S64, .f32⟩
  | 20 => ⟨S64, .f32⟩
  | 21 => ⟨S64x1, .f32⟩
  | 22 => ⟨S64x60, .f32⟩
  | 23 => ⟨S64x60, .f32⟩
  | 24 => ⟨S64x60, .f32⟩
  | 25 => ⟨S_, .f32⟩
  | 26 => ⟨S64, .f32⟩
  | 27 => ⟨S64x1, .f32⟩
  | 28 => ⟨S64x1, .f32⟩
  | 29 => ⟨S64x60, .f32⟩
  | 30 => ⟨S64x60, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_cst_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_cst_1 : Ref sig .tc := ⟨.hbm, 92, rfl⟩
abbrev main_call1_v8 : Ref sig .tc := ⟨.hbm, 93, rfl⟩
abbrev main_call1_cst_2 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_cst_3 : Ref sig .tc := ⟨.hbm, 98, rfl⟩
abbrev main_call1_v12 : Ref sig .tc := ⟨.hbm, 99, rfl⟩
abbrev main_call1_cst_4 : Ref sig .tc := ⟨.hbm, 100, rfl⟩
abbrev main_call1_call0_v0 : Ref sig .tc := ⟨.hbm, 101, rfl⟩
abbrev main_call1_call0_v1 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_cst_14 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_call2_cst : Ref sig .tc := ⟨.hbm, 120, rfl⟩
abbrev main_call2_v0 : Ref sig .tc := ⟨.hbm, 121, rfl⟩
abbrev main_v71 : Ref sig .tc := ⟨.hbm, 122, rfl⟩
abbrev main_cst_15 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_16 : Ref sig .tc := ⟨.hbm, 127, rfl⟩
abbrev main_v75 : Ref sig .tc := ⟨.hbm, 128, rfl⟩
abbrev main_cst_17 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_18 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_call3_cst : Ref sig .tc := ⟨.hbm, 144, rfl⟩
abbrev main_call3_v0 : Ref sig .tc := ⟨.hbm, 145, rfl⟩
abbrev main_call3_cst_0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_cst_1 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_v89 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S60x256_S256x60_1_0 : S60x256.Transposes [1, 0] S256x60
  bcast_S60_S1x60_1 : S60.BroadcastsInDim S1x60 (![1] : Fin 1 → Fin S1x60.rank)
  bcast_S1x60_S64x60_0_1 : S1x60.BroadcastsInDim S64x60 (![0, 1] : Fin 2 → Fin S64x60.rank)
  reducesTo_S64x60_S64_d1 : S64x60.ReducesTo [1] S64
  bcast_S64x1_S64x60_0_1 : S64x1.BroadcastsInDim S64x60 (![0, 1] : Fin 2 → Fin S64x60.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x60_S64x60_1_0_0_1_n_n_wf : DotDims.WF S64x256 S256x60 S64x60 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x60_S64x60_1_0_0_1_n_n : DotDims S64x256 S256x60 S64x60 where
  lhsContracting := [1]
  rhsContracting := [0]
  lhsNonContracting := [0]
  rhsNonContracting := [1]
  lhsBatch := []
  rhsBatch := []
  wf := dot_S64x256_S256x60_S64x60_1_0_0_1_n_n_wf

class Facts : Prop extends Facts₀ where

variable [Facts]
-- ==== Proof.KW.Matmul.lean ====
import proofs.«403238_j23510650978598_3_alg».proof.Proof.Gen.Kernel.Launch
import proofs.«403238_j23510650978598_3_alg».proof.Proof.Gen.Kernel.Skeleton
import proofs.«403238_j23510650978598_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def tile0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev wholeRows0 : Rect S5000x256 := Rect.unit (s := S5000x256) ![0, 0] S5000x256.size inb_S5000x256_S5000x256_0_0
abbrev wholeWeights0 : Rect S256x256 := Rect.unit (s := S256x256) ![0, 0] S256x256.size inb_S256x256_S256x256_0_0
abbrev wholeScale0 : Rect S5000x1 := Rect.unit (s := S5000x1) ![0, 0] S5000x1.size inb_S5000x1_S5000x1_0_0

-- What the single store leaves in the output tile, as a function of the three input tiles.
def scaledTile0 (x : Vec F S5000x256 .f32) (wt : Vec F S256x256 .f32) (s : Vec F S5000x1 .f32) : Vec F S5000x256 .f32 :=
  View.canon [⟨wholeRows0, k0_pay1 (View.ld x wholeRows0) (View.ld wt wholeWeights0) (View.ld s wholeScale0)⟩]

-- The body reads its three inputs whole and overwrites the whole output, so the output ends at `scaledTile0` of the inputs.
theorem matmul_body_runs (E : Set ℕ) (i : grid0.Coords)
    (a1 : Memref sig .tc .vmem S5000x256 .f32) (h1 : a1.IsWhole) (a2 : Memref sig .tc .vmem S256x256 .f32) (h2 : a2.IsWhole)
    (a3 : Memref sig .tc .vmem S5000x1 .f32) (h3 : a3.IsWhole) (a4 : Memref sig .tc .vmem S5000x256 .f32) (h4 : a4.IsWhole)
    (x : Vec F S5000x256 .f32) (wt : Vec F S256x256 .f32) (s : Vec F S5000x1 .f32) (K : PUnit → sProp 𝕄) :
    iprop(owns c a1 fullShare x ∗ owns c a2 fullShare wt ∗ owns c a3 fullShare s
        ∗ (∃ d, owns c a4 fullShare d)
        ∗ (iprop(owns c a1 fullShare x ∗ owns c a2 fullShare wt ∗ owns c a3 fullShare s
            ∗ owns c a4 fullShare (scaledTile0 x wt s)) -∗ K ⟨⟩))
      ⊢ wp frame (wpE (defs₀ (F := F)) Variants.none c none) E (cc0__matmul_kernel i a1 h1 a2 h2 a3 h3 a4 h4) K := by
  simp only [cc0__matmul_kernel_eq_skeleton]; unfold cc0__matmul_kernel_skel owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x256.size (by rfl))

def dat0 : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => scaledTile0 (tile0 V c 0 t) (tile0 V c 1 t) (tile0 V c 2 t)
  Φ _ := Pipeline.ΦA spec0 c
  q _ := fullShare
  owed _ := 0

theorem A_eq0 (w : Fin cfg0.W) : (dat0 V c).A w = V c (Pipeline.arrRef spec0 w) := rfl

theorem after0_0 (t : Fin cfg0.N) : (dat0 V c).after 0 t = tile0 V c 0 t := rfl
theorem after0_1 (t : Fin cfg0.N) : (dat0 V c).after 1 t = tile0 V c 1 t := rfl
theorem after0_2 (t : Fin cfg0.N) : (dat0 V c).after 2 t = tile0 V c 2 t := rfl
theorem after0_out (t : Fin cfg0.N) :
    (dat0 V c).after 3 t = scaledTile0 (tile0 V c 0 t) (tile0 V c 1 t) (tile0 V c 2 t) := by dsimp only [dat0]

-- The body never writes an input, so at every point each input still holds its tile.
theorem before0 (t : Fin cfg0.N) :
    (∀ d, (dat0 V c).before 0 t d = tile0 V c 0 t) ∧ (∀ d, (dat0 V c).before 1 t d = tile0 V c 1 t)
      ∧ ∀ d, (dat0 V c).before 2 t d = tile0 V c 2 t := by
  refine ⟨?_, ?_, ?_⟩ <;> exact fun d =>
    ((dat0 V c).before_in_eq_fetched _ rfl (fun _ => rfl) (fun _ _ _ => rfl) (fun _ => rfl) t d).trans rfl

theorem body_obligation0 : BodyObligation (dat0 (F := F) V c) (defs₀ (F := F)) Variants.none () Set.univ := fun t => by
  obtain ⟨b0, b1, b2⟩ := before0 V c t
  simp only [bigSep_W0, b0, b1, b2, after0_0, after0_1, after0_2, after0_out]
  rw [show (dat0 V c).Φ t.succ = (dat0 V c).Φ t.castSucc from rfl,
    show (dat0 V c).owesAt () t.succ = (dat0 V c).owesAt () t.castSucc from rfl]
  sl_whnfR [defs₀, Defs.onTc]
  iintro ⟨HΦ, Ho, ⟨%_, H0⟩, ⟨%_, H1⟩, ⟨%_, H2⟩, ⟨%d3, H3⟩⟩
  iapply matmul_body_runs c Set.univ _ _ _ _ _ _ _ _ _ (tile0 V c 0 t) (tile0 V c 1 t) (tile0 V c 2 t) _
  iframe
  isplitl [H3]; · iexists _; iexact H3
  iintro ⟨H0, H1, H2, H3⟩
  iframe

theorem hin0 : (Pipeline.ΦA spec0 c : sProp 𝕄) ⊢ (dat0 V c).Φ 0 := .rfl

theorem hout0 : (dat0 V c).Φ (Fin.last cfg0.N) ⊢ (Pipeline.ΦA spec0 c : sProp 𝕄) := .rfl

end Cert.Kernel.Hand

end
-- ==== Proof.KW.Stats.lean ====
import proofs.«403238_j23510650978598_3_alg».proof.Proof.Gen.Kernel.Launch
import proofs.«403238_j23510650978598_3_alg».proof.Proof.Gen.Kernel.Skeleton
import proofs.«403238_j23510650978598_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tileZero (i : grid1.Coords) : Prop :=
  (Scalar.cmpi .ne (Scalar.extui (Scalar.cmpi .eq (BitVec.ofNat 32 (i 1).val) 0#32)) 0#32) = 1#1

theorem tileZero_iff : ∀ t : Fin cfg1.N, tileZero (grid1.coords t) ↔ t.val % 10 = 0 :=
  (by decide +kernel : ∀ t : Fin grid1.N, tileZero (grid1.coords t) ↔ t.val % 10 = 0)

theorem zz : (![0, 0] : Fin 2 → Nat) = fun _ => 0 := by
  funext a; fin_cases a <;> rfl

-- Once the whole row has been stored, the buffer reads that payload, whatever it held and whatever was stored earlier.
theorem read_row {sg : RefSig} {κ : Kind} {sp : Space} (v : View sg κ sp S1x128 .f32) (f : v.ty.Contents (Elt F))
    (w : S1x128.Idx → Elt F .f32) (L : List (View.Piece (Elt F) S1x128 .f32)) :
    v.read (Elt F) (v.writes (Elt F) f ((⟨Rect.unit ![0, 0] S1x128.size inb_S1x128_S1x128_0_0, w⟩ : View.Piece (Elt F) S1x128 .f32) :: L)) = w :=
  (View.read_writes_eq_canon _ _ _ (fun y => ⟨_, List.Mem.head _, View.mem_set_unit_zero zz inb_S1x128_S1x128_0_0 y⟩)).trans
    (View.canon_cons_unit_zero (S := S1x128) zz inb_S1x128_S1x128_0_0 _ _)

set_option maxHeartbeats 400000 in
-- One grid point. The sums continue from z0, z1: zero at the first row tile of a channel half, the accumulators' contents at a later one.
theorem run_body (c : Dev nD) (i : grid1.Coords)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (a8 : Memref sig .tc .vmem S1x128 .f32) (h8 : a8.IsWhole)
    (x : Vec F S5000x128 .f32) (d : Vec F S5000x1 .f32) (b : Vec F S1x128 .f32) (o3 o4 s0 s1 z0 z1 : Vec F S1x128 .f32)
    (hz : tileZero i ∧ z0 = k1_pay2 (F := F) ∧ z1 = k1_pay3 (F := F) ∨ ¬tileZero i ∧ z0 = s0 ∧ z1 = s1)
    (E : Set ℕ) (K : PUnit → sProp 𝕄) :
    iprop(owns (c : Thread nD τ) a2 fullShare x ∗ owns (c : Thread nD τ) a3 fullShare d ∗ owns (c : Thread nD τ) a4 fullShare b
        ∗ owns (c : Thread nD τ) a5 fullShare o3 ∗ owns (c : Thread nD τ) a6 fullShare o4
        ∗ owns (c : Thread nD τ) a7 fullShare s0 ∗ owns (c : Thread nD τ) a8 fullShare s1
        ∗ (iprop(owns (c : Thread nD τ) a2 fullShare x ∗ owns (c : Thread nD τ) a3 fullShare d ∗ owns (c : Thread nD τ) a4 fullShare b
            ∗ owns (c : Thread nD τ) a5 fullShare (k1_pay7 (k1_pay5 x d b z0))
            ∗ owns (c : Thread nD τ) a6 fullShare (k1_pay1 (k1_pay7 (k1_pay5 x d b z0)) (k1_pay6 x d b z1))
            ∗ owns (c : Thread nD τ) a7 fullShare (k1_pay5 x d b z0)
            ∗ owns (c : Thread nD τ) a8 fullShare (k1_pay6 x d b z1)) -∗ K ⟨⟩))
      ⊢ wp frame (wpE (defs₀ (F := F)) Variants.none c none) E (cc1__bn_stats_kernel i a2 h2 a3 h3 a4 h4 a5 h5 a6 h6 a7 h7 a8 h8) K := by
  simp only [cc1__bn_stats_kernel_eq_skeleton]; unfold cc1__bn_stats_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7; obtain rfl := h8.eq_unread hf8
  obtain ⟨hc, rfl, rfl⟩ | ⟨hc, rfl, rfl⟩ := hz <;>
  ( sl_exec (disch := first | exact hc)
    sl_step
    iapply Hk
    isplitl [H2]; rotate_left; isplitl [H3]; rotate_left; isplitl [H4]; rotate_left
    isplitl [H5]; rotate_left; isplitl [H6]; rotate_left; isplitl [H7]; rotate_left
    all_goals
      iexists _; isplitr; swap; iassumption
      ipureintro; sl_unfold_words
      try refine (read_row _ _ _ _).trans ?_
      simp only [View.readAt_eq_ld, h2.read_unread, h3.read_unread, h4.read_unread, h7.read_unread, h8.read_unread,
        View.ld_unit_zero (S := S5000x128) zz, View.ld_unit_zero (S := S5000x1) zz, View.ld_unit_zero (S := S1x128) zz]
      repeat rw [View.readCov_cons_toLoadRect] )

variable (V : (c : Dev nD) → (b : Ref sig .tc) → Buf (Elt F) ((c : Thread nD τ).loc b))

def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rowsAt (c : Dev nD) (t : Fin cfg1.N) : Vec F S5000x128 .f32 := tile1 V c 0 t
abbrev scaleAt (c : Dev nD) (t : Fin cfg1.N) : Vec F S5000x1 .f32 := tile1 V c 1 t
abbrev biasAt (c : Dev nD) (t : Fin cfg1.N) : Vec F S1x128 .f32 := tile1 V c 2 t

def sumAfter (c : Dev nD) : (n : ℕ) → n < cfg1.N → Vec F S1x128 .f32
  | 0, h => k1_pay5 (rowsAt V c ⟨0, h⟩) (scaleAt V c ⟨0, h⟩) (biasAt V c ⟨0, h⟩) (k1_pay2 (F := F))
  | n + 1, h => k1_pay5 (rowsAt V c ⟨n + 1, h⟩) (scaleAt V c ⟨n + 1, h⟩) (biasAt V c ⟨n + 1, h⟩)
      (if (n + 1) % 10 = 0 then (k1_pay2 (F := F)) else sumAfter c n (Nat.lt_of_succ_lt h))

def sqAfter (c : Dev nD) : (n : ℕ) → n < cfg1.N → Vec F S1x128 .f32
  | 0, h => k1_pay6 (rowsAt V c ⟨0, h⟩) (scaleAt V c ⟨0, h⟩) (biasAt V c ⟨0, h⟩) (k1_pay3 (F := F))
  | n + 1, h => k1_pay6 (rowsAt V c ⟨n + 1, h⟩) (scaleAt V c ⟨n + 1, h⟩) (biasAt V c ⟨n + 1, h⟩)
      (if (n + 1) % 10 = 0 then (k1_pay3 (F := F)) else sqAfter c n (Nat.lt_of_succ_lt h))

theorem sumAfter_first (c : Dev nD) (t : Fin cfg1.N) (h : t.val % 10 = 0) :
    sumAfter V c t.val t.isLt = k1_pay5 (rowsAt V c t) (scaleAt V c t) (biasAt V c t) (k1_pay2 (F := F)) := by
  obtain ⟨_ | n, hn⟩ := t
  · rfl
  · rw [sumAfter, if_pos h]

theorem sumAfter_next (c : Dev nD) (t : Fin cfg1.N) (h : ¬t.val % 10 = 0) :
    sumAfter V c t.val t.isLt = k1_pay5 (rowsAt V c t) (scaleAt V c t) (biasAt V c t)
      (sumAfter V c (t.val - 1) (Nat.lt_of_le_of_lt (Nat.sub_le _ _) t.isLt)) := by
  obtain ⟨_ | n, hn⟩ := t
  · exact absurd (Nat.zero_mod _) h
  · rw [sumAfter, if_neg h]; rfl

theorem sqAfter_first (c : Dev nD) (t : Fin cfg1.N) (h : t.val % 10 = 0) :
    sqAfter V c t.val t.isLt = k1_pay6 (rowsAt V c t) (scaleAt V c t) (biasAt V c t) (k1_pay3 (F := F)) := by
  obtain ⟨_ | n, hn⟩ := t
  · rfl
  · rw [sqAfter, if_pos h]

theorem sqAfter_next (c : Dev nD) (t : Fin cfg1.N) (h : ¬t.val % 10 = 0) :
    sqAfter V c t.val t.isLt = k1_pay6 (rowsAt V c t) (scaleAt V c t) (biasAt V c t)
      (sqAfter V c (t.val - 1) (Nat.lt_of_le_of_lt (Nat.sub_le _ _) t.isLt)) := by
  obtain ⟨_ | n, hn⟩ := t
  · exact absurd (Nat.zero_mod _) h
  · rw [sqAfter, if_neg h]; rfl

def meanAfter (c : Dev nD) (t : Fin cfg1.N) : Vec F S1x128 .f32 := k1_pay7 (sumAfter V c t.val t.isLt)
def varAfter (c : Dev nD) (t : Fin cfg1.N) : Vec F S1x128 .f32 := k1_pay1 (k1_pay7 (sumAfter V c t.val t.isLt)) (sqAfter V c t.val t.isLt)

abbrev sumBuf : Memref sig .tc .vmem S1x128 .f32 := Memref.whole cc1_scratch0
abbrev sqBuf : Memref sig .tc .vmem S1x128 .f32 := Memref.whole cc1_scratch1

-- Everything carried from point to point, the two accumulators at `s0`, `s1`.
def held (c : Dev nD) (s0 s1 : Vec F S1x128 .f32) : sProp 𝕄 :=
  iprop(owns (c : Thread nD τ) sumBuf fullShare s0 ∗ owns (c : Thread nD τ) sqBuf fullShare s1
    ∗ Pipeline.scopedRestBut (Ix := Unit) (Name := ℕ) (U := UR sig nD τ) (Lvl := ℕ) (Val := Elt F) spec1 c [cc1_scratch0, cc1_scratch1]
    ∗ (∃ r, prngReg c r))

-- Between points the accumulators hold the running sums of the point before; before the first point, anything.
def carried (c : Dev nD) (n : ℕ) (hn : n ≤ cfg1.N) : sProp 𝕄 :=
  iprop(∃ s0 s1, ⌜∀ h : n ≠ 0, s0 = sumAfter V c (n - 1) (by omega) ∧ s1 = sqAfter V c (n - 1) (by omega)⌝ ∗ held c s0 s1)

def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => meanAfter V c t
    | ⟨4, _⟩ => varAfter V c t
  Φ t := carried V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = meanAfter V c t := by dsimp only [dat1]
theorem after1_4 (c : Dev nD) (t : Fin cfg1.N) : (dat1 V c).after 4 t = varAfter V c t := by dsimp only [dat1]

-- What the body reads of an input window at a point is the window's block there.
theorem before1 (c : Dev nD) (t : Fin cfg1.N) :
    (∀ d, (dat1 V c).before 0 t d = tile1 V c 0 t) ∧ (∀ d, (dat1 V c).before 1 t d = tile1 V c 1 t)
      ∧ ∀ d, (dat1 V c).before 2 t d = tile1 V c 2 t := by
  refine ⟨fun d => ?_, fun d => ?_, fun d => ?_⟩ <;>
    exact ((dat1 V c).before_in_eq_fetched _ rfl (fun _ => rfl) (fun _ _ _ => rfl)
      (fun t => by unfold Dat.blockOf; dsimp only [dat1]; unfold tile1; try rfl) t d).trans
      (by unfold Dat.fetched Dat.blockOf tile1; rw [A_eq1]; try rfl)

abbrev m1_0 (t : Fin cfg1.N) : Memref sig .tc .vmem S5000x128 .f32 := win1_0.stage (cfg1.slots t 0)
abbrev m1_1 (t : Fin cfg1.N) : Memref sig .tc .vmem S5000x1 .f32 := win1_1.stage (cfg1.slots t 1)
abbrev m1_2 (t : Fin cfg1.N) : Memref sig .tc .vmem S1x128 .f32 := win1_2.stage (cfg1.slots t 2)
abbrev m1_3 (t : Fin cfg1.N) : Memref sig .tc .vmem S1x128 .f32 := win1_3.stage (cfg1.slots t 3)
abbrev m1_4 (t : Fin cfg1.N) : Memref sig .tc .vmem S1x128 .f32 := win1_4.stage (cfg1.slots t 4)

theorem body_obligation1 (c : Dev nD) :
    BodyObligation (dat1 (F := F) V c) (defs₀ (F := F)) Variants.none () Set.univ := fun t => by
  rw [bigSep_W1, bigSep_W1]
  show iprop((dat1 V c).Φ t.castSucc ∗ (dat1 V c).owesAt () t.castSucc
    ∗ (∃ d, owns (c : Thread nD τ) (m1_0 t) fullShare ((dat1 V c).before 0 t d))
    ∗ (∃ d, owns (c : Thread nD τ) (m1_1 t) fullShare ((dat1 V c).before 1 t d))
    ∗ (∃ d, owns (c : Thread nD τ) (m1_2 t) fullShare ((dat1 V c).before 2 t d))
    ∗ (∃ d, owns (c : Thread nD τ) (m1_3 t) fullShare ((dat1 V c).before 3 t d))
    ∗ (∃ d, owns (c : Thread nD τ) (m1_4 t) fullShare ((dat1 V c).before 4 t d)))
    ⊢ wp frame (wpE (defs₀ (F := F)) Variants.none c none) Set.univ (bodyAt1 t) (fun _ =>
      iprop(carried V c (t.val + 1) t.isLt ∗ (dat1 V c).owesAt () t.castSucc
        ∗ owns (c : Thread nD τ) (m1_0 t) fullShare ((dat1 V c).after 0 t)
        ∗ owns (c : Thread nD τ) (m1_1 t) fullShare ((dat1 V c).after 1 t)
        ∗ owns (c : Thread nD τ) (m1_2 t) fullShare ((dat1 V c).after 2 t)
        ∗ owns (c : Thread nD τ) (m1_3 t) fullShare ((dat1 V c).after 3 t)
        ∗ owns (c : Thread nD τ) (m1_4 t) fullShare ((dat1 V c).after 4 t)))
  simp only [(before1 V c t).1, (before1 V c t).2.1, (before1 V c t).2.2]
  rw [show (dat1 V c).Φ t.castSucc = carried V c t.val (Nat.le_of_lt t.isLt) by dsimp only [dat1]; simp only [Fin.coe_castSucc]]
  dsimp only [dat1]
  unfold meanAfter varAfter carried held bodyAt1
  iintro ⟨⟨%s0, %s1, %hs, HS0, HS1, Hrest, Hg⟩, Ho, ⟨%d0, H0⟩, ⟨%d1, H1⟩, ⟨%d2, H2⟩, ⟨%d3, H3⟩, ⟨%d4, H4⟩⟩
  obtain ⟨z0, z1, hz, e0, e1⟩ : ∃ z0 z1,
      (tileZero (grid1.coords t) ∧ z0 = k1_pay2 (F := F) ∧ z1 = k1_pay3 (F := F) ∨ ¬tileZero (grid1.coords t) ∧ z0 = s0 ∧ z1 = s1)
      ∧ sumAfter V c t.val t.isLt = k1_pay5 (rowsAt V c t) (scaleAt V c t) (biasAt V c t) z0
      ∧ sqAfter V c t.val t.isLt = k1_pay6 (rowsAt V c t) (scaleAt V c t) (biasAt V c t) z1 := by
    by_cases h0 : t.val % 10 = 0
    · exact ⟨_, _, .inl ⟨(tileZero_iff t).mpr h0, rfl, rfl⟩, sumAfter_first V c t h0, sqAfter_first V c t h0⟩
    · obtain ⟨rfl, rfl⟩ := hs fun e => h0 (by rw [e])
      exact ⟨_, _, .inr ⟨fun h => h0 ((tileZero_iff t).mp h), rfl, rfl⟩, sumAfter_next V c t h0, sqAfter_next V c t h0⟩
  rw [e0, e1]
  iapply (run_body c (grid1.coords t) _ _ _ _ _ _ _ _ _ _ _ _ _ _
    (rowsAt V c t) (scaleAt V c t) (biasAt V c t) _ _ s0 s1 z0 z1 hz Set.univ _)
  iframe H0 H1 H2 H3 H4 HS0 HS1
  iintro ⟨H0, H1, H2, H3, H4, HS0, HS1⟩
  iframe H0 H1 H2 H3 H4 Ho
  iexists _, _
  isplitr; · ipureintro; exact fun _ => ⟨e0.symm, e1.symm⟩
  iframe

theorem hin1 (c : Dev nD) : (Pipeline.ΦA spec1 c : sProp 𝕄) ⊢ (dat1 V c).Φ 0 := by
  rw [show (dat1 V c).Φ 0 = carried V c 0 (Nat.zero_le _) from rfl]
  unfold carried held Pipeline.ΦA; rw [scopedRest1_split]; simp only [sumBuf, sqBuf, owns_whole]
  iintro ⟨⟨⟨⟨%s0, H0⟩, ⟨%s1, H1⟩⟩, Hr⟩, Hg⟩; iexists s0, s1; isplitr
  · ipureintro; exact fun h => absurd rfl h
  · iframe

theorem hout1 (c : Dev nD) : (dat1 V c).Φ (Fin.last cfg1.N) ⊢ (Pipeline.ΦA spec1 c : sProp 𝕄) := by
  rw [show (dat1 V c).Φ (Fin.last cfg1.N) = carried V c cfg1.N (Nat.le_refl _) from rfl]
  unfold carried held Pipeline.ΦA; rw [scopedRest1_split]; simp only [sumBuf, sqBuf, owns_whole]
  iintro ⟨%s0, %s1, -, H0, H1, Hr, Hg⟩; iframe; isplitl [H0] <;> iexists _ <;> iassumption

end Cert.Kernel.Hand

end
-- ==== Proof.KW.Pool.lean ====
import proofs.«403238_j23510650978598_3_alg».proof.Proof.Gen.Kernel.Launch
import proofs.«403238_j23510650978598_3_alg».proof.Proof.Gen.Kernel.Skeleton
import proofs.«403238_j23510650978598_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOff2 : (![0, 0] : Fin 2 → Nat) = fun _ => 0 := funext fun a => by fin_cases a <;> rfl

abbrev firstTile (i : grid2.Coords) : Prop :=
  (Scalar.cmpi .ne (Scalar.extui (Scalar.cmpi .eq (BitVec.ofNat 32 (i 1).val) 0#32)) 0#32) = 1#1

theorem firstTile_iff : ∀ t : Fin cfg2.N, firstTile (grid2.coords t) ↔ t.val % 10 = 0 :=
  (by decide +kernel : ∀ t : Fin grid2.N, firstTile (grid2.coords t) ↔ t.val % 10 = 0)

def tileStep (x0 : Vec F S5000x128 .f32) (x1 : Vec F S5000x1 .f32) (x2 x3 x4 x5 x6 : Vec F S1x128 .f32)
    (x7 : Vec F S5000x64 .bf16) (prev : Vec F S64x128 .f32) : Vec F S64x128 .f32 :=
  k2_pay1 (k2_pay3 x0 x1 x2 x4 x5 x3 x6) (k2_pay4 x7) prev

-- Reading through a whole memref is a bijection, so owning it at `X` is holding the one contents that read `X`.
theorem owns_unread (c : Dev nD) {sp : Space} {sh : Shape} {e : EltTy} {m : Memref sig .tc sp sh e} (h : m.IsWhole)
    (X : sh.Idx → Elt F e) :
    (owns (c : Thread nD τ) m fullShare X : sProp 𝕄)
      = pointsTo (m.view.loc (c : Thread nD τ)) m.view.set fullShare (h.unread X) := by
  have h₁ : (owns (c : Thread nD τ) m fullShare X : sProp 𝕄)
      ⊢ pointsTo (m.view.loc (c : Thread nD τ)) m.view.set fullShare (h.unread X) := by
    unfold owns; iintro ⟨%f, %hf, H⟩; obtain rfl := h.eq_unread hf; iexact H
  have h₂ : (_ : sProp 𝕄) ⊢ owns (c : Thread nD τ) m fullShare (m.view.read (Elt F) (h.unread X)) :=
    owns_intro (c : Thread nD τ) m fullShare (h.unread X)
  rw [h.read_unread] at h₂
  exact BI.equiv_iff.mp ⟨h₁, h₂⟩

-- A store of the whole shape, made last, covers every earlier one: the buffer then reads its payload.
theorem read_store_whole {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

set_option maxHeartbeats 4000000 in
-- The accumulator restarts from zeros at a first row tile, else goes on from `prev`; this tile's product is added.
theorem run_tile (c : Dev nD) {i : grid2.Coords}
    {a2 : Memref sig .tc .vmem S5000x128 .f32} {h2 : a2.IsWhole} {a3 : Memref sig .tc .vmem S5000x1 .f32} {h3 : a3.IsWhole}
    {a4 : Memref sig .tc .vmem S1x128 .f32} {h4 : a4.IsWhole} {a5 : Memref sig .tc .vmem S1x128 .f32} {h5 : a5.IsWhole}
    {a6 : Memref sig .tc .vmem S1x128 .f32} {h6 : a6.IsWhole} {a7 : Memref sig .tc .vmem S1x128 .f32} {h7 : a7.IsWhole}
    {a8 : Memref sig .tc .vmem S1x128 .f32} {h8 : a8.IsWhole} {a9 : Memref sig .tc .vmem S5000x64 .bf16} {h9 : a9.IsWhole}
    {a10 : Memref sig .tc .vmem S64x128 .f32} {h10 : a10.IsWhole} {a11 : Memref sig .tc .vmem S64x128 .f32} {h11 : a11.IsWhole}
    {x0 : Vec F S5000x128 .f32} {x1 : Vec F S5000x1 .f32} {x2 x3 x4 x5 x6 : Vec F S1x128 .f32}
    {x7 : Vec F S5000x64 .bf16} {y8 prev : Vec F S64x128 .f32} {E : Set ℕ} {K : PUnit → sProp 𝕄} :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare x7 ∗ owns (c : Thread nD τ) a10 fullShare y8
        ∗ owns (c : Thread nD τ) a11 fullShare prev
        ∗ (iprop(owns (c : Thread nD τ) a11 fullShare (tileStep x0 x1 x2 x3 x4 x5 x6 x7 (if firstTile i then k2_pay2 (F := F) else prev))
            ∗ owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare x6 ∗ owns (c : Thread nD τ) a9 fullShare x7
            ∗ owns (c : Thread nD τ) a10 fullShare (tileStep x0 x1 x2 x3 x4 x5 x6 x7 (if firstTile i then k2_pay2 (F := F) else prev)))
          -∗ K ⟨⟩))
      ⊢ wp frame (wpE (defs₀ (F := F)) Variants.none c none) E
          (cc2__bn_relu_pool_kernel i a2 h2 a3 h3 a4 h4 a5 h5 a6 h6 a7 h7 a8 h8 a9 h9 a10 h10 a11 h11) K := by
  by_cases hc : firstTile i
  on_goal 1 => rw [if_pos hc]
  on_goal 2 => rw [if_neg hc]
  all_goals
    rw [owns_unread c h2 x0, owns_unread c h3 x1, owns_unread c h4 x2, owns_unread c h5 x3, owns_unread c h6 x4,
      owns_unread c h7 x5, owns_unread c h8 x6, owns_unread c h9 x7, owns_unread c h10 y8, owns_unread c h11 prev]
    simp only [cc2__bn_relu_pool_kernel_eq_skeleton]; unfold cc2__bn_relu_pool_kernel_skel
    simp only [k2_part1_eq_skeleton]
    iintro ⟨H0, H1, H2, H3, H4, H5, H6, H7, H8, HS, Hk⟩
    sl_exec (disch := first | exact hc)
    sl_step
    iapply Hk
    iframe H0 H1 H2 H3 H4 H5 H6 H7
    unfold owns
    isplitl [HS]
    all_goals
      iexists _; isplitr; swap; · iassumption
      ipureintro
      sl_unfold_words
      rw [read_store_whole (S := S64x128) _ _ zeroOff2]
      unfold tileStep
      simp only [View.readCov_cons_toLoadRect, View.readAt_eq_ld, Memref.IsWhole.read_unread,
        View.ld_unit_zero (S := S5000x128) zeroOff2, View.ld_unit_zero (S := S5000x1) zeroOff2,
        View.ld_unit_zero (S := S1x128) zeroOff2, View.ld_unit_zero (S := S5000x64) zeroOff2,
        View.ld_unit_zero (S := S64x128) zeroOff2]

variable (V : (c : Dev nD) → (b : Ref sig .tc) → Buf (Elt F) ((c : Thread nD τ).loc b))

def tileOf (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev featTile (c : Dev nD) (t : Fin cfg2.N) : Vec F S5000x128 .f32 := tileOf V c 0 t
abbrev dinvTile (c : Dev nD) (t : Fin cfg2.N) : Vec F S5000x1 .f32 := tileOf V c 1 t
abbrev biasTile (c : Dev nD) (t : Fin cfg2.N) : Vec F S1x128 .f32 := tileOf V c 2 t
abbrev meanTile (c : Dev nD) (t : Fin cfg2.N) : Vec F S1x128 .f32 := tileOf V c 3 t
abbrev varTile (c : Dev nD) (t : Fin cfg2.N) : Vec F S1x128 .f32 := tileOf V c 4 t
abbrev gammaTile (c : Dev nD) (t : Fin cfg2.N) : Vec F S1x128 .f32 := tileOf V c 5 t
abbrev betaTile (c : Dev nD) (t : Fin cfg2.N) : Vec F S1x128 .f32 := tileOf V c 6 t
abbrev memberTile (c : Dev nD) (t : Fin cfg2.N) : Vec F S5000x64 .bf16 := tileOf V c 7 t

def poolAcc (c : Dev nD) : (n : ℕ) → n < cfg2.N → Vec F S64x128 .f32
  | 0, hn => tileStep (featTile V c ⟨0, hn⟩) (dinvTile V c ⟨0, hn⟩) (biasTile V c ⟨0, hn⟩) (meanTile V c ⟨0, hn⟩)
      (varTile V c ⟨0, hn⟩) (gammaTile V c ⟨0, hn⟩) (betaTile V c ⟨0, hn⟩) (memberTile V c ⟨0, hn⟩) (k2_pay2 (F := F))
  | n + 1, hn => tileStep (featTile V c ⟨n + 1, hn⟩) (dinvTile V c ⟨n + 1, hn⟩) (biasTile V c ⟨n + 1, hn⟩)
      (meanTile V c ⟨n + 1, hn⟩) (varTile V c ⟨n + 1, hn⟩) (gammaTile V c ⟨n + 1, hn⟩) (betaTile V c ⟨n + 1, hn⟩)
      (memberTile V c ⟨n + 1, hn⟩)
      (if (n + 1) % 10 = 0 then k2_pay2 (F := F) else poolAcc c n (Nat.lt_of_succ_lt hn))

theorem poolAcc_first (c : Dev nD) (t : Fin cfg2.N) (h : t.val % 10 = 0) :
    poolAcc V c t.val t.isLt = tileStep (featTile V c t) (dinvTile V c t) (biasTile V c t) (meanTile V c t)
      (varTile V c t) (gammaTile V c t) (betaTile V c t) (memberTile V c t) (k2_pay2 (F := F)) := by
  obtain ⟨_ | n, hn⟩ := t
  · rfl
  · exact congrArg (tileStep _ _ _ _ _ _ _ _) (if_pos h)

theorem poolAcc_later (c : Dev nD) (t : Fin cfg2.N) (h : t.val % 10 ≠ 0) :
    poolAcc V c t.val t.isLt = tileStep (featTile V c t) (dinvTile V c t) (biasTile V c t) (meanTile V c t)
      (varTile V c t) (gammaTile V c t) (betaTile V c t) (memberTile V c t)
      (poolAcc V c (t.val - 1) (Nat.lt_of_le_of_lt (Nat.sub_le _ _) t.isLt)) := by
  obtain ⟨_ | n, hn⟩ := t
  · exact absurd (Nat.zero_mod _) h
  · exact congrArg (tileStep _ _ _ _ _ _ _ _) (if_neg h)

abbrev accRef : Memref sig .tc .vmem S64x128 .f32 := Memref.whole cc2_scratch0

abbrev restBut (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) accRef fullShare d)
          ∗ restBut c)
          ∗ (∃ r, prngReg c r)) := by
  unfold Pipeline.ΦA
  rw [Pipeline.scopedRest_split_of_list spec2 c [cc2_scratch0] (by decide) (by decide)]
  simp only [accRef, owns_whole]; rfl

-- Before position `n` the accumulator holds what the position before left; before the first, anything.
def poolInv (c : Dev nD) (n : ℕ) (hn : n ≤ cfg2.N) : sProp 𝕄 :=
  iprop(iprop((∃ d, ⌜∀ h : n ≠ 0, d = poolAcc V c (n - 1) (by omega)⌝ ∗ owns (c : Thread nD τ) accRef fullShare d)
      ∗ restBut c)
      ∗ (∃ r, prngReg c r))

def dat2 (c : Dev nD) : Dat τ (Elt F) Unit ℕ (UR sig nD τ) ℕ cfg2 c where
  A w := V c (Pipeline.arrRef spec2 w)
  after w t := match w with
    | ⟨0, _⟩ => tileOf V c 0 t
    | ⟨1, _⟩ => tileOf V c 1 t
    | ⟨2, _⟩ => tileOf V c 2 t
    | ⟨3, _⟩ => tileOf V c 3 t
    | ⟨4, _⟩ => tileOf V c 4 t
    | ⟨5, _⟩ => tileOf V c 5 t
    | ⟨6, _⟩ => tileOf V c 6 t
    | ⟨7, _⟩ => tileOf V c 7 t
    | ⟨8, _⟩ => poolAcc V c t.val t.isLt
  Φ t := poolInv V c t.val (Nat.le_of_lt_succ t.isLt)
  q _ := fullShare
  owed _ := 0

theorem A_eq2 (c : Dev nD) (w : Fin cfg2.W) : (dat2 V c).A w = V c (Pipeline.arrRef spec2 w) := rfl

theorem after2_8 (c : Dev nD) (t : Fin cfg2.N) : (dat2 V c).after 8 t = poolAcc V c t.val t.isLt := rfl

-- The body leaves the inputs as they were, so an input window holds its block of the entry array at every point.
theorem before2 (c : Dev nD) (t : Fin cfg2.N) :
    ∀ w : Fin cfg2.W, w ≠ 8 → ∀ d, (dat2 V c).before w t d = (dat2 V c).fetched w t d
  | 0, _, d | 1, _, d | 2, _, d | 3, _, d | 4, _, d | 5, _, d | 6, _, d | 7, _, d =>
    (dat2 V c).before_in_eq_fetched _ rfl (fun _ => rfl) (fun _ _ _ => rfl) (fun _ => rfl) t d
  | 8, h, _ => absurd rfl h

theorem Φ2_eq (c : Dev nD) (t : Fin (cfg2.N + 1)) :
    (dat2 V c).Φ t = poolInv V c t.val (Nat.le_of_lt_succ t.isLt) := rfl

set_option maxHeartbeats 4000000 in
-- The accumulator's contents before the point and the point's position give this position's sums, whichever branch runs.
theorem body_obligation2 (c : Dev nD) :
    BodyObligation (dat2 (F := F) V c) (defs₀ (F := F)) Variants.none () Set.univ := fun t => by
  rw [bigSep_W2, bigSep_W2]
  simp only [before2 V c t 0 (by decide), before2 V c t 1 (by decide), before2 V c t 2 (by decide), before2 V c t 3 (by decide),
    before2 V c t 4 (by decide), before2 V c t 5 (by decide), before2 V c t 6 (by decide), before2 V c t 7 (by decide)]
  rw [after2_8, Φ2_eq, Φ2_eq]; simp only [Fin.coe_castSucc]; unfold poolInv
  iintro ⟨⟨⟨⟨%d, %hd, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hacc : tileStep (featTile V c t) (dinvTile V c t) (biasTile V c t) (meanTile V c t) (varTile V c t) (gammaTile V c t)
      (betaTile V c t) (memberTile V c t) (if firstTile (grid2.coords t) then k2_pay2 (F := F) else d)
        = poolAcc V c t.val t.isLt := by
    by_cases h0 : t.val % 10 = 0
    · rw [if_pos ((firstTile_iff t).mpr h0), poolAcc_first V c t h0]
    · rw [if_neg fun h => h0 ((firstTile_iff t).mp h), poolAcc_later V c t h0, hd fun e => h0 (by rw [e])]
  rw [← hacc]
  iapply (run_tile c)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨HS, Hw⟩
  isplitl [HS HR Hg]
  · iframe HR Hg
    iexists _; isplitr; swap; · iexact HS
    ipureintro; exact fun _ => hacc
  isplitl [Ho]; · iexact Ho
  iexact Hw

theorem hin2 (c : Dev nD) : (Pipeline.ΦA spec2 c : sProp 𝕄) ⊢ (dat2 V c).Φ 0 := by
  rw [PhiA2_eq, Φ2_eq]; unfold poolInv
  iintro ⟨⟨⟨%d, HS⟩, HR⟩, Hg⟩
  iframe HR Hg
  iexists d; isplitr; · ipureintro; exact fun h => absurd rfl h
  iexact HS

theorem hout2 (c : Dev nD) : (dat2 V c).Φ (Fin.last cfg2.N) ⊢ (Pipeline.ΦA spec2 c : sProp 𝕄) := by
  rw [PhiA2_eq, Φ2_eq]; unfold poolInv
  iintro ⟨⟨⟨%d, -, HS⟩, HR⟩, Hg⟩
  iframe HR Hg
  iexists d; iexact HS

end Cert.Kernel.Hand

end
-- ==== Proof.KW.Classify.lean ====
import proofs.«403238_j23510650978598_3_alg».proof.Proof.Gen.Kernel.Launch
import proofs.«403238_j23510650978598_3_alg».proof.Proof.Gen.Kernel.Skeleton
import proofs.«403238_j23510650978598_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def blk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev wholeP : Rect S64x256 := Rect.unit (s := S64x256) ![0, 0] S64x256.size inb_S64x256_S64x256_0_0
abbrev wholeW : Rect S60x256 := Rect.unit (s := S60x256) ![0, 0] S60x256.size inb_S60x256_S60x256_0_0
abbrev wholeB : Rect S1x60 := Rect.unit (s := S1x60) ![0, 0] S1x60.size inb_S1x60_S1x60_0_0
abbrev wholeO : Rect S64x60 := Rect.unit (s := S64x60) ![0, 0] S64x60.size inb_S64x60_S64x60_0_0

-- What the single store leaves in the output block, as a function of the three input blocks.
def logp3 (p : Vec F S64x256 .f32) (wf : Vec F S60x256 .f32) (bf : Vec F S1x60 .f32) : Vec F S64x60 .f32 :=
  View.canon [⟨wholeO, k3_pay1 (View.ld p wholeP) (View.ld wf wholeW) (View.ld bf wholeB)⟩]

-- The body reads its three inputs whole and overwrites the whole output, so the output ends at `logp3` of the inputs.
theorem sound_kernel3 (E : Set ℕ) (i : grid3.Coords)
    (a1 : Memref sig .tc .vmem S64x256 .f32) (h1 : a1.IsWhole) (a2 : Memref sig .tc .vmem S60x256 .f32) (h2 : a2.IsWhole)
    (a3 : Memref sig .tc .vmem S1x60 .f32) (h3 : a3.IsWhole) (a4 : Memref sig .tc .vmem S64x60 .f32) (h4 : a4.IsWhole)
    (x0 : Vec F S64x256 .f32) (x1 : Vec F S60x256 .f32) (x2 : Vec F S1x60 .f32) (K : PUnit → sProp 𝕄) :
    iprop(owns c a1 fullShare x0 ∗ owns c a2 fullShare x1 ∗ owns c a3 fullShare x2
        ∗ (∃ d, owns c a4 fullShare d)
        ∗ (iprop(owns c a1 fullShare x0 ∗ owns c a2 fullShare x1 ∗ owns c a3 fullShare x2
            ∗ owns c a4 fullShare (logp3 x0 x1 x2)) -∗ K ⟨⟩))
      ⊢ wp frame (wpE (defs₀ (F := F)) Variants.none c none) E (cc3__fc_kernel i a1 h1 a2 h2 a3 h3 a4 h4) K := by
  simp only [cc3__fc_kernel_eq_skeleton]; unfold cc3__fc_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S64x60.size (by rfl))

def dat3 : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => logp3 (blk3 V c 0 t) (blk3 V c 1 t) (blk3 V c 2 t)
  Φ _ := Pipeline.ΦA spec3 c
  q _ := fullShare
  owed _ := 0

theorem A_eq3 (w : Fin cfg3.W) : (dat3 V c).A w = V c (Pipeline.arrRef spec3 w) := rfl

theorem after3_0 (t : Fin cfg3.N) : (dat3 V c).after 0 t = blk3 V c 0 t := rfl
theorem after3_1 (t : Fin cfg3.N) : (dat3 V c).after 1 t = blk3 V c 1 t := rfl
theorem after3_2 (t : Fin cfg3.N) : (dat3 V c).after 2 t = blk3 V c 2 t := rfl
theorem after3_3 (t : Fin cfg3.N) : (dat3 V c).after 3 t = logp3 (blk3 V c 0 t) (blk3 V c 1 t) (blk3 V c 2 t) := rfl

-- The body never writes an input, so at every point each input still holds its block.
theorem before3 (t : Fin cfg3.N) :
    (∀ d, (dat3 V c).before 0 t d = blk3 V c 0 t) ∧ (∀ d, (dat3 V c).before 1 t d = blk3 V c 1 t)
      ∧ ∀ d, (dat3 V c).before 2 t d = blk3 V c 2 t := by
  refine ⟨?_, ?_, ?_⟩ <;> exact fun d =>
    ((dat3 V c).before_in_eq_fetched _ rfl (fun _ => rfl) (fun _ _ _ => rfl) (fun _ => rfl) t d).trans rfl

theorem body_obligation3 : BodyObligation (dat3 (F := F) V c) (defs₀ (F := F)) Variants.none () Set.univ := fun t => by
  obtain ⟨b0, b1, b2⟩ := before3 V c t
  simp only [bigSep_W3, b0, b1, b2, after3_0, after3_1, after3_2, after3_3]
  rw [show (dat3 V c).Φ t.succ = (dat3 V c).Φ t.castSucc from rfl,
    show (dat3 V c).owesAt () t.succ = (dat3 V c).owesAt () t.castSucc from rfl]
  sl_whnfR [defs₀, Defs.onTc]
  iintro ⟨HΦ, Ho, ⟨%_, H0⟩, ⟨%_, H1⟩, ⟨%_, H2⟩, ⟨%d3, H3⟩⟩
  iapply sound_kernel3 c Set.univ _ _ _ _ _ _ _ _ _ (blk3 V c 0 t) (blk3 V c 1 t) (blk3 V c 2 t) _
  iframe
  isplitl [H3]; · iexists _; iexact H3
  iintro ⟨H0, H1, H2, H3⟩
  iframe

theorem hin3 : (Pipeline.ΦA spec3 c : sProp 𝕄) ⊢ (dat3 V c).Φ 0 := .rfl

theorem hout3 : (dat3 V c).Φ (Fin.last cfg3.N) ⊢ (Pipeline.ΦA spec3 c : sProp 𝕄) := .rfl

end Cert.Kernel.Hand

end
-- ==== Proof.KW.Run.lean ====
import proofs.«403238_j23510650978598_3_alg».proof.Proof.Gen.Kernel.Regions
import proofs.«403238_j23510650978598_3_alg».proof.Proof.KW.Matmul
import proofs.«403238_j23510650978598_3_alg».proof.Proof.KW.Stats
import proofs.«403238_j23510650978598_3_alg».proof.Proof.KW.Pool
import proofs.«403238_j23510650978598_3_alg».proof.Proof.KW.Classify
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Each stage is the one before it, updated at a region's output arrays.
def at4 (c : Dev nD) : Valuation τ sig (Elt F) :=
  Function.update (Gen.V3 m c) main_v21 ((dat0 (fun c b => Gen.V3 m c b) c).arrAt 3 cfg0.N)
def at5 (c : Dev nD) : Valuation τ sig (Elt F) := StableHlo.after hostOps1 (at4 m c)
def at6 (c : Dev nD) : Valuation τ sig (Elt F) :=
  Function.update (Function.update (at5 m c) main_v37_0 ((dat1 (fun c b => at5 m c b) c).arrAt 3 cfg1.N))
    main_v37_1 ((dat1 (fun c b => at5 m c b) c).arrAt 4 cfg1.N)
def at7 (c : Dev nD) : Valuation τ sig (Elt F) := StableHlo.after hostOps2 (at6 m c)
def at8 (c : Dev nD) : Valuation τ sig (Elt F) :=
  Function.update (at7 m c) main_v49 ((dat2 (fun c b => at7 m c b) c).arrAt 8 cfg2.N)
def at9 (c : Dev nD) : Valuation τ sig (Elt F) := StableHlo.after hostOps3 (at8 m c)
def at10 (c : Dev nD) : Valuation τ sig (Elt F) :=
  Function.update (at9 m c) main_v56 ((dat3 (fun c b => at9 m c b) c).arrAt 3 cfg3.N)

def outs : Gen.Outs (F := F) := fun J r c =>
  match J with
  | 4 => at4 m c r
  | 6 => at6 m c r
  | 8 => at8 m c r
  | 10 => at10 m c r
  | _ => Gen.V0 m c r

theorem ne_v37 : (Proc.devRef .tc main_v37_0 : DevRef τ sig) ≠ Proc.devRef .tc main_v37_1 :=
  StableHlo.devRef_ne_of_ne (by decide)

-- An update read where it was made is the value written, so the generated valuations at `outs` are the stages.
theorem V4_at (c : Dev nD) : Gen.V4 m (outs m) c = at4 m c := by
  show Function.update (Gen.V3 m c) main_v21 (at4 m c main_v21) = _
  unfold at4; rw [Function.update_self]
theorem V6_at (c : Dev nD) : Gen.V6 m (outs m) c = at6 m c := by
  show Function.update (Function.update (StableHlo.after hostOps1 (Gen.V4 m (outs m) c)) main_v37_0 (at6 m c main_v37_0)) main_v37_1 (at6 m c main_v37_1) = _
  rw [V4_at]; unfold at6
  rw [Function.update_self, Function.update_of_ne ne_v37, Function.update_self]; rfl
theorem V8_at (c : Dev nD) : Gen.V8 m (outs m) c = at8 m c := by
  show Function.update (StableHlo.after hostOps2 (Gen.V6 m (outs m) c)) main_v49 (at8 m c main_v49) = _
  rw [V6_at]; unfold at8; rw [Function.update_self]; rfl
theorem V10_at (c : Dev nD) : Gen.V10 m (outs m) c = at10 m c := by
  show Function.update (StableHlo.after hostOps3 (Gen.V8 m (outs m) c)) main_v56 (at10 m c main_v56) = _
  rw [V8_at]; unfold at10; rw [Function.update_self]; rfl

abbrev E0 : (c : Dev nD) → (b : Ref sig .tc) → Buf (Elt F) ((c : Thread nD τ).loc b) := fun c b => Gen.V3 m c b
abbrev E1 : (c : Dev nD) → (b : Ref sig .tc) → Buf (Elt F) ((c : Thread nD τ).loc b) := fun c b => Gen.V5 m (outs m) c b
abbrev E2 : (c : Dev nD) → (b : Ref sig .tc) → Buf (Elt F) ((c : Thread nD τ).loc b) := fun c b => Gen.V7 m (outs m) c b
abbrev E3 : (c : Dev nD) → (b : Ref sig .tc) → Buf (Elt F) ((c : Thread nD τ).loc b) := fun c b => Gen.V9 m (outs m) c b

theorem E1_at : E1 m = fun c (b : Ref sig .tc) => at5 m c b :=
  funext fun c => funext fun b => congrFun (congrArg (StableHlo.after hostOps1) (V4_at m c)) b
theorem E2_at : E2 m = fun c (b : Ref sig .tc) => at7 m c b :=
  funext fun c => funext fun b => congrFun (congrArg (StableHlo.after hostOps2) (V6_at m c)) b
theorem E3_at : E3 m = fun c (b : Ref sig .tc) => at9 m c b :=
  funext fun c => funext fun b => congrFun (congrArg (StableHlo.after hostOps3) (V8_at m c)) b

theorem outs_features (c : Dev nD) : outs m 4 main_v21 c = (dat0 (E0 m) c).arrAt 3 cfg0.N := by
  show at4 m c main_v21 = _; unfold at4; exact Function.update_self ..
theorem outs_mean (c : Dev nD) : outs m 6 main_v37_0 c = (dat1 (E1 m) c).arrAt 3 cfg1.N := by
  rw [E1_at]; show at6 m c main_v37_0 = _; unfold at6
  exact (Function.update_of_ne ne_v37 ..).trans (Function.update_self ..)
theorem outs_var (c : Dev nD) : outs m 6 main_v37_1 c = (dat1 (E1 m) c).arrAt 4 cfg1.N := by
  rw [E1_at]; show at6 m c main_v37_1 = _; unfold at6; exact Function.update_self ..
theorem outs_pool (c : Dev nD) : outs m 8 main_v49 c = (dat2 (E2 m) c).arrAt 8 cfg2.N := by
  rw [E2_at]; show at8 m c main_v49 = _; unfold at8; exact Function.update_self ..
theorem outs_result (c : Dev nD) : outs m 10 main_v56 c = (dat3 (E3 m) c).arrAt 3 cfg3.N := by
  rw [E3_at]; show at10 m c main_v56 = _; unfold at10; exact Function.update_self ..

def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

theorem pdats_plain : ∀ (p : Fin 4) (c : Dev nD), (∀ w, (pdats m p c).q w = fullShare)
    ∧ (∀ t, (pdats m p c).owed t = 0) ∧ ∀ t, (pdats m p c).recorded t = Set.univ
  | ⟨0, _⟩, _ | ⟨1, _⟩, _ | ⟨2, _⟩, _ | ⟨3, _⟩, _ => ⟨fun _ => rfl, fun _ => rfl, fun _ => rfl⟩

abbrev pairs : GSem nD τ sig → Finset Unit := fun _ => ∅
abbrev levels : GSem nD τ sig → Unit → ℕ := fun _ _ => 0
abbrev beside (c : Dev nD) : sProp 𝕄 :=
  iprop((∃ r, prngReg c r) ∗ ∃ W, owes (c : Thread nD τ) (0 : CellTallies nD τ sig Unit) W)

-- Region `p` as a segment from `Vin` to `Vout`, which agrees with `Vin` off the list `L` of output arrays.
def regionOf (p : Fin 4) (lf : Pipeline.LaunchFacts (nD := nD) (τ := τ) cfgs p) (Vin Vout : Dev nD → Valuation τ sig (Elt F))
    (L : List (Ref sig .tc)) (hof : ∀ c (r : Ref sig .tc), r ∉ L → Vout c r = Vin c r)
    (hkept : ∀ w, ((cfgs p).win w).isOut = false → Pipeline.arrRef (cfgs p).spec w ∉ L)
    (hL : ∀ r ∈ L, r ∈ Finset.univ.image (Pipeline.arrRef (cfgs p).spec))
    (hA : ∀ c w, (pdats m p c).A w = Vin c (Pipeline.arrRef (cfgs p).spec w))
    (hO : ∀ c w, ((cfgs p).win w).isOut = true → (pdats m p c).arrAt w (cfgs p).N = Vout c (Pipeline.arrRef (cfgs p).spec w))
    (hbody : ∀ c, BodyObligation (pdats m p c) (defs₀ (F := F)) Variants.none () Set.univ)
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄)) :
    Pipeline.RegionSeg (pcfgs (F := F)) Gen.adm (pdats m) () defs₀ Variants.none pairs levels p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ pairs levels p fun c => (pdats_plain m p c).2.1
  pre c := iprop(StableHlo.held (c : Thread nD τ) (Pipeline.ucRefs τ sig) (Vin c) ∗ beside c)
  post c := iprop(StableHlo.held (c : Thread nD τ) (Pipeline.ucRefs τ sig) (Vout c) ∗ beside c)
  X c := iprop(∃ r, prngReg c r)
  Y c := iprop(∃ r, prngReg c r)
  Z c := Pipeline.unscopedRest (cfgs p).spec c fun b => Vin c b
  hentry c := by
    rw [Pipeline.ownSems0_none]
    have hsplit := Pipeline.arrays_of_unscopedBufs (p := p) (pcfgs (F := F)) Gen.adm (pdats m) lf.win lf.arr_whole c
      ((pdats m p c).share_full (pdats_plain m p c).1) (fun b => Vin c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound
    rw [(pdats_plain m p c).2.1, (pdats_plain m p c).2.2]
    icases HO with ⟨%W, HO⟩; iexists W; iframe; ipureintro; exact fun _ _ => Or.inl trivial
  hin c := by
    refine BIBase.Entails.trans ?_ (hin c)
    unfold Pipeline.ΦA
    iintro ⟨Hp, -, Hr⟩
    iframe
  hout c := by
    refine BIBase.Entails.trans (hout c) ?_
    rw [Pipeline.ownSems0_none]; unfold Pipeline.ΦA
    iintro ⟨Hr, Hp⟩
    iframe; iempintro
  hexit c := by
    have hF : ∀ w, (pdats m p c).arrAt w (cfgs p).N = Vout c (Pipeline.arrRef (cfgs p).spec w) := fun w => by
      cases hw : ((cfgs p).win w).isOut
      · exact ((pdats m p c).arrAt_in w hw _).trans ((hA c w).trans (hof c _ (hkept w hw)).symm)
      · exact hO c w hw
    have hjoin := Pipeline.unscopedBufs_of_arrays (p := p) (pcfgs (F := F)) Gen.adm lf.win lf.arr_whole c (pdats m) ((pdats m p c).share_full (pdats_plain m p c).1)
      (fun b => Vin c b) (fun b => Vout c b) ((pdats m p c).arrAt · (cfgs p).N) hF fun b hb => hof c b fun hm => hb (hL b hm)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin
    rw [(pdats_plain m p c).2.1]
    icases HO with ⟨%W, -, HO⟩; iexists W; iexact HO

def region0 := regionOf m 0 launch0 (Gen.V3 m) (Gen.V4 m (outs m)) [main_v21] (Gen.V4_of m (outs m)) (by decide) (by decide)
  (A_eq0 (E0 m)) (fun c w hw => by
    obtain rfl : w = 3 := (by decide : ∀ w : Fin 4, (cfg0.win w).isOut = true → w = 3) w hw
    rw [V4_at]; exact (outs_features m c).symm)
  (body_obligation0 (E0 m)) (hin0 (E0 m)) (hout0 (E0 m))

def region1 := regionOf m 1 launch1 (Gen.V5 m (outs m)) (Gen.V6 m (outs m)) [main_v37_0, main_v37_1] (Gen.V6_of m (outs m))
  (by decide) (by decide) (A_eq1 (E1 m)) (fun c w hw => by
    rw [V6_at]
    rcases (by decide : ∀ w : Fin 5, (cfg1.win w).isOut = true → w = 3 ∨ w = 4) w hw with rfl | rfl
    exacts [(outs_mean m c).symm, (outs_var m c).symm])
  (body_obligation1 (E1 m)) (hin1 (E1 m)) (hout1 (E1 m))

def region2 := regionOf m 2 launch2 (Gen.V7 m (outs m)) (Gen.V8 m (outs m)) [main_v49] (Gen.V8_of m (outs m)) (by decide) (by decide)
  (A_eq2 (E2 m)) (fun c w hw => by
    obtain rfl : w = 8 := (by decide : ∀ w : Fin 9, (cfg2.win w).isOut = true → w = 8) w hw
    rw [V8_at]; exact (outs_pool m c).symm)
  (body_obligation2 (E2 m)) (hin2 (E2 m)) (hout2 (E2 m))

def region3 := regionOf m 3 launch3 (Gen.V9 m (outs m)) (Gen.V10 m (outs m)) [main_v56] (Gen.V10_of m (outs m)) (by decide) (by decide)
  (A_eq3 (E3 m)) (fun c w hw => by
    obtain rfl : w = 3 := (by decide : ∀ w : Fin 4, (cfg3.win w).isOut = true → w = 3) w hw
    rw [V10_at]; exact (outs_result m c).symm)
  (body_obligation3 (E3 m)) (hin3 (E3 m)) (hout3 (E3 m))

theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  rw [BI.bigSep_emp_const, ownU_emb₁]
  iintro Hu; imodintro
  isplitl [Hu]; · iexact Hu
  iempintro

theorem launch_beside : iprop((bigSep Finset.univ fun c : Dev nD => iprop(unscopedSems0 c
      ∗ owes (c : Thread nD τ) ((0 : Dev nD → CellTallies nD τ sig Unit) c) ∅ ∗ Pipeline.launchCred (0 : Dev nD → CellTallies nD τ sig Unit) c
      ∗ prngReg c (ρ c) ∗ (BI.emp : sProp 𝕄))) ∗ levAts pairs levels)
    ⊢ (|={Set.univ}=> bigSep Finset.univ (beside (F := F)) : sProp 𝕄) :=
  Pipeline.initEach pairs levels fun c => by
    iintro ⟨⟨-, HO, -, Hp, -⟩, -⟩
    imodintro
    isplitl [Hp]; · iexists _; iexact Hp
    iexists ∅; iexact HO

theorem beside_owes (c : Dev nD) :
    beside (F := F) c ⊢ iprop(∃ W, owes (c : Thread nD τ) (0 : CellTallies nD τ sig Unit) W) := by
  iintro ⟨-, HO⟩; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m emb₁ () Variants.none pairs levels (fun _ _ => rfl) ρ (outs m) (pdats m) (O₀ := 0) (G := fun _ => iprop(emp))
    (u₀ := _) (hu₀ := launch_elem) (E := fun _ => beside) (hE0 := launch_beside ρ) (hE4 := beside_owes)
    (region0 m) (fun _ => .rfl) (fun _ => .rfl) (region1 m) (fun _ => .rfl) (fun _ => .rfl)
    (region2 m) (fun _ => .rfl) (fun _ => .rfl) (region3 m) (fun _ => .rfl) (fun _ => .rfl)

end Cert.Kernel.Hand

end
-- ==== Proof.KI.Matmul.lean ====
import proofs.«403238_j23510650978598_3_alg».proof.Proof.Gen.KernelIdeal.Launch
import proofs.«403238_j23510650978598_3_alg».proof.Proof.Gen.KernelIdeal.Skeleton
import proofs.«403238_j23510650978598_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def tile0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev wholeRows0 : Rect S5000x256 := Rect.unit (s := S5000x256) ![0, 0] S5000x256.size inb_S5000x256_S5000x256_0_0
abbrev wholeWeights0 : Rect S256x256 := Rect.unit (s := S256x256) ![0, 0] S256x256.size inb_S256x256_S256x256_0_0
abbrev wholeScale0 : Rect S5000x1 := Rect.unit (s := S5000x1) ![0, 0] S5000x1.size inb_S5000x1_S5000x1_0_0

-- What the single store leaves in the output tile, as a function of the three input tiles.
def scaledTile0 (x : Vec F S5000x256 .f32) (wt : Vec F S256x256 .f32) (s : Vec F S5000x1 .f32) : Vec F S5000x256 .f32 :=
  View.canon [⟨wholeRows0, k0_pay1 (View.ld x wholeRows0) (View.ld wt wholeWeights0) (View.ld s wholeScale0)⟩]

-- The body reads its three inputs whole and overwrites the whole output, so the output ends at `scaledTile0` of the inputs.
theorem matmul_body_runs (E : Set ℕ) (i : grid0.Coords)
    (a1 : Memref sig .tc .vmem S5000x256 .f32) (h1 : a1.IsWhole) (a2 : Memref sig .tc .vmem S256x256 .f32) (h2 : a2.IsWhole)
    (a3 : Memref sig .tc .vmem S5000x1 .f32) (h3 : a3.IsWhole) (a4 : Memref sig .tc .vmem S5000x256 .f32) (h4 : a4.IsWhole)
    (x : Vec F S5000x256 .f32) (wt : Vec F S256x256 .f32) (s : Vec F S5000x1 .f32) (K : PUnit → sProp 𝕄) :
    iprop(owns c a1 fullShare x ∗ owns c a2 fullShare wt ∗ owns c a3 fullShare s
        ∗ (∃ d, owns c a4 fullShare d)
        ∗ (iprop(owns c a1 fullShare x ∗ owns c a2 fullShare wt ∗ owns c a3 fullShare s
            ∗ owns c a4 fullShare (scaledTile0 x wt s)) -∗ K ⟨⟩))
      ⊢ wp frame (wpE (defs₀ (F := F)) Variants.none c none) E (cc0__matmul_kernel i a1 h1 a2 h2 a3 h3 a4 h4) K := by
  simp only [cc0__matmul_kernel_eq_skeleton]; unfold cc0__matmul_kernel_skel owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x256.size (by rfl))

def dat0 : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => scaledTile0 (tile0 V c 0 t) (tile0 V c 1 t) (tile0 V c 2 t)
  Φ _ := Pipeline.ΦA spec0 c
  q _ := fullShare
  owed _ := 0

theorem A_eq0 (w : Fin cfg0.W) : (dat0 V c).A w = V c (Pipeline.arrRef spec0 w) := rfl

theorem after0_0 (t : Fin cfg0.N) : (dat0 V c).after 0 t = tile0 V c 0 t := rfl
theorem after0_1 (t : Fin cfg0.N) : (dat0 V c).after 1 t = tile0 V c 1 t := rfl
theorem after0_2 (t : Fin cfg0.N) : (dat0 V c).after 2 t = tile0 V c 2 t := rfl
theorem after0_out (t : Fin cfg0.N) :
    (dat0 V c).after 3 t = scaledTile0 (tile0 V c 0 t) (tile0 V c 1 t) (tile0 V c 2 t) := by dsimp only [dat0]

-- The body never writes an input, so at every point each input still holds its tile.
theorem before0 (t : Fin cfg0.N) :
    (∀ d, (dat0 V c).before 0 t d = tile0 V c 0 t) ∧ (∀ d, (dat0 V c).before 1 t d = tile0 V c 1 t)
      ∧ ∀ d, (dat0 V c).before 2 t d = tile0 V c 2 t := by
  refine ⟨?_, ?_, ?_⟩ <;> exact fun d =>
    ((dat0 V c).before_in_eq_fetched _ rfl (fun _ => rfl) (fun _ _ _ => rfl) (fun _ => rfl) t d).trans rfl

theorem body_obligation0 : BodyObligation (dat0 (F := F) V c) (defs₀ (F := F)) Variants.none () Set.univ := fun t => by
  obtain ⟨b0, b1, b2⟩ := before0 V c t
  simp only [bigSep_W0, b0, b1, b2, after0_0, after0_1, after0_2, after0_out]
  rw [show (dat0 V c).Φ t.succ = (dat0 V c).Φ t.castSucc from rfl,
    show (dat0 V c).owesAt () t.succ = (dat0 V c).owesAt () t.castSucc from rfl]
  sl_whnfR [defs₀, Defs.onTc]
  iintro ⟨HΦ, Ho, ⟨%_, H0⟩, ⟨%_, H1⟩, ⟨%_, H2⟩, ⟨%d3, H3⟩⟩
  iapply matmul_body_runs c Set.univ _ _ _ _ _ _ _ _ _ (tile0 V c 0 t) (tile0 V c 1 t) (tile0 V c 2 t) _
  iframe
  isplitl [H3]; · iexists _; iexact H3
  iintro ⟨H0, H1, H2, H3⟩
  iframe

theorem hin0 : (Pipeline.ΦA spec0 c : sProp 𝕄) ⊢ (dat0 V c).Φ 0 := .rfl

theorem hout0 : (dat0 V c).Φ (Fin.last cfg0.N) ⊢ (Pipeline.ΦA spec0 c : sProp 𝕄) := .rfl

end Cert.KernelIdeal.Hand

end
-- ==== Proof.KI.Stats.lean ====
import proofs.«403238_j23510650978598_3_alg».proof.Proof.Gen.KernelIdeal.Launch
import proofs.«403238_j23510650978598_3_alg».proof.Proof.Gen.KernelIdeal.Skeleton
import proofs.«403238_j23510650978598_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tileZero (i : grid1.Coords) : Prop :=
  (Scalar.cmpi .ne (Scalar.extui (Scalar.cmpi .eq (BitVec.ofNat 32 (i 1).val) 0#32)) 0#32) = 1#1

theorem tileZero_iff : ∀ t : Fin cfg1.N, tileZero (grid1.coords t) ↔ t.val % 10 = 0 :=
  (by decide +kernel : ∀ t : Fin grid1.N, tileZero (grid1.coords t) ↔ t.val % 10 = 0)

theorem zz : (![0, 0] : Fin 2 → Nat) = fun _ => 0 := by
  funext a; fin_cases a <;> rfl

-- Once the whole row has been stored, the buffer reads that payload, whatever it held and whatever was stored earlier.
theorem read_row {sg : RefSig} {κ : Kind} {sp : Space} (v : View sg κ sp S1x128 .f32) (f : v.ty.Contents (Elt F))
    (w : S1x128.Idx → Elt F .f32) (L : List (View.Piece (Elt F) S1x128 .f32)) :
    v.read (Elt F) (v.writes (Elt F) f ((⟨Rect.unit ![0, 0] S1x128.size inb_S1x128_S1x128_0_0, w⟩ : View.Piece (Elt F) S1x128 .f32) :: L)) = w :=
  (View.read_writes_eq_canon _ _ _ (fun y => ⟨_, List.Mem.head _, View.mem_set_unit_zero zz inb_S1x128_S1x128_0_0 y⟩)).trans
    (View.canon_cons_unit_zero (S := S1x128) zz inb_S1x128_S1x128_0_0 _ _)

set_option maxHeartbeats 400000 in
-- One grid point. The sums continue from z0, z1: zero at the first row tile of a channel half, the accumulators' contents at a later one.
theorem run_body (c : Dev nD) (i : grid1.Coords)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (a7 : Memref sig .tc .vmem S1x128 .f32) (h7 : a7.IsWhole)
    (a8 : Memref sig .tc .vmem S1x128 .f32) (h8 : a8.IsWhole)
    (x : Vec F S5000x128 .f32) (d : Vec F S5000x1 .f32) (b : Vec F S1x128 .f32) (o3 o4 s0 s1 z0 z1 : Vec F S1x128 .f32)
    (hz : tileZero i ∧ z0 = k1_pay2 (F := F) ∧ z1 = k1_pay3 (F := F) ∨ ¬tileZero i ∧ z0 = s0 ∧ z1 = s1)
    (E : Set ℕ) (K : PUnit → sProp 𝕄) :
    iprop(owns (c : Thread nD τ) a2 fullShare x ∗ owns (c : Thread nD τ) a3 fullShare d ∗ owns (c : Thread nD τ) a4 fullShare b
        ∗ owns (c : Thread nD τ) a5 fullShare o3 ∗ owns (c : Thread nD τ) a6 fullShare o4
        ∗ owns (c : Thread nD τ) a7 fullShare s0 ∗ owns (c : Thread nD τ) a8 fullShare s1
        ∗ (iprop(owns (c : Thread nD τ) a2 fullShare x ∗ owns (c : Thread nD τ) a3 fullShare d ∗ owns (c : Thread nD τ) a4 fullShare b
            ∗ owns (c : Thread nD τ) a5 fullShare (k1_pay7 (k1_pay5 x d b z0))
            ∗ owns (c : Thread nD τ) a6 fullShare (k1_pay1 (k1_pay7 (k1_pay5 x d b z0)) (k1_pay6 x d b z1))
            ∗ owns (c : Thread nD τ) a7 fullShare (k1_pay5 x d b z0)
            ∗ owns (c : Thread nD τ) a8 fullShare (k1_pay6 x d b z1)) -∗ K ⟨⟩))
      ⊢ wp frame (wpE (defs₀ (F := F)) Variants.none c none) E (cc1__bn_stats_kernel i a2 h2 a3 h3 a4 h4 a5 h5 a6 h6 a7 h7 a8 h8) K := by
  simp only [cc1__bn_stats_kernel_eq_skeleton]; unfold cc1__bn_stats_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7; obtain rfl := h8.eq_unread hf8
  obtain ⟨hc, rfl, rfl⟩ | ⟨hc, rfl, rfl⟩ := hz <;>
  ( sl_exec (disch := first | exact hc)
    sl_step
    iapply Hk
    isplitl [H2]; rotate_left; isplitl [H3]; rotate_left; isplitl [H4]; rotate_left
    isplitl [H5]; rotate_left; isplitl [H6]; rotate_left; isplitl [H7]; rotate_left
    all_goals
      iexists _; isplitr; swap; iassumption
      ipureintro; sl_unfold_words
      try refine (read_row _ _ _ _).trans ?_
      simp only [View.readAt_eq_ld, h2.read_unread, h3.read_unread, h4.read_unread, h7.read_unread, h8.read_unread,
        View.ld_unit_zero (S := S5000x128) zz, View.ld_unit_zero (S := S5000x1) zz, View.ld_unit_zero (S := S1x128) zz]
      repeat rw [View.readCov_cons_toLoadRect] )

variable (V : (c : Dev nD) → (b : Ref sig .tc) → Buf (Elt F) ((c : Thread nD τ).loc b))

def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rowsAt (c : Dev nD) (t : Fin cfg1.N) : Vec F S5000x128 .f32 := tile1 V c 0 t
abbrev scaleAt (c : Dev nD) (t : Fin cfg1.N) : Vec F S5000x1 .f32 := tile1 V c 1 t
abbrev biasAt (c : Dev nD) (t : Fin cfg1.N) : Vec F S1x128 .f32 := tile1 V c 2 t

def sumAfter (c : Dev nD) : (n : ℕ) → n < cfg1.N → Vec F S1x128 .f32
  | 0, h => k1_pay5 (rowsAt V c ⟨0, h⟩) (scaleAt V c ⟨0, h⟩) (biasAt V c ⟨0, h⟩) (k1_pay2 (F := F))
  | n + 1, h => k1_pay5 (rowsAt V c ⟨n + 1, h⟩) (scaleAt V c ⟨n + 1, h⟩) (biasAt V c ⟨n + 1, h⟩)
      (if (n + 1) % 10 = 0 then (k1_pay2 (F := F)) else sumAfter c n (Nat.lt_of_succ_lt h))

def sqAfter (c : Dev nD) : (n : ℕ) → n < cfg1.N → Vec F S1x128 .f32
  | 0, h => k1_pay6 (rowsAt V c ⟨0, h⟩) (scaleAt V c ⟨0, h⟩) (biasAt V c ⟨0, h⟩) (k1_pay3 (F := F))
  | n + 1, h => k1_pay6 (rowsAt V c ⟨n + 1, h⟩) (scaleAt V c ⟨n + 1, h⟩) (biasAt V c ⟨n + 1, h⟩)
      (if (n + 1) % 10 = 0 then (k1_pay3 (F := F)) else sqAfter c n (Nat.lt_of_succ_lt h))

theorem sumAfter_first (c : Dev nD) (t : Fin cfg1.N) (h : t.val % 10 = 0) :
    sumAfter V c t.val t.isLt = k1_pay5 (rowsAt V c t) (scaleAt V c t) (biasAt V c t) (k1_pay2 (F := F)) := by
  obtain ⟨_ | n, hn⟩ := t
  · rfl
  · rw [sumAfter, if_pos h]

theorem sumAfter_next (c : Dev nD) (t : Fin cfg1.N) (h : ¬t.val % 10 = 0) :
    sumAfter V c t.val t.isLt = k1_pay5 (rowsAt V c t) (scaleAt V c t) (biasAt V c t)
      (sumAfter V c (t.val - 1) (Nat.lt_of_le_of_lt (Nat.sub_le _ _) t.isLt)) := by
  obtain ⟨_ | n, hn⟩ := t
  · exact absurd (Nat.zero_mod _) h
  · rw [sumAfter, if_neg h]; rfl

theorem sqAfter_first (c : Dev nD) (t : Fin cfg1.N) (h : t.val % 10 = 0) :
    sqAfter V c t.val t.isLt = k1_pay6 (rowsAt V c t) (scaleAt V c t) (biasAt V c t) (k1_pay3 (F := F)) := by
  obtain ⟨_ | n, hn⟩ := t
  · rfl
  · rw [sqAfter, if_pos h]

theorem sqAfter_next (c : Dev nD) (t : Fin cfg1.N) (h : ¬t.val % 10 = 0) :
    sqAfter V c t.val t.isLt = k1_pay6 (rowsAt V c t) (scaleAt V c t) (biasAt V c t)
      (sqAfter V c (t.val - 1) (Nat.lt_of_le_of_lt (Nat.sub_le _ _) t.isLt)) := by
  obtain ⟨_ | n, hn⟩ := t
  · exact absurd (Nat.zero_mod _) h
  · rw [sqAfter, if_neg h]; rfl

def meanAfter (c : Dev nD) (t : Fin cfg1.N) : Vec F S1x128 .f32 := k1_pay7 (sumAfter V c t.val t.isLt)
def varAfter (c : Dev nD) (t : Fin cfg1.N) : Vec F S1x128 .f32 := k1_pay1 (k1_pay7 (sumAfter V c t.val t.isLt)) (sqAfter V c t.val t.isLt)

abbrev sumBuf : Memref sig .tc .vmem S1x128 .f32 := Memref.whole cc1_scratch0
abbrev sqBuf : Memref sig .tc .vmem S1x128 .f32 := Memref.whole cc1_scratch1

-- Everything carried from point to point, the two accumulators at `s0`, `s1`.
def held (c : Dev nD) (s0 s1 : Vec F S1x128 .f32) : sProp 𝕄 :=
  iprop(owns (c : Thread nD τ) sumBuf fullShare s0 ∗ owns (c : Thread nD τ) sqBuf fullShare s1
    ∗ Pipeline.scopedRestBut (Ix := Unit) (Name := ℕ) (U := UR sig nD τ) (Lvl := ℕ) (Val := Elt F) spec1 c [cc1_scratch0, cc1_scratch1]
    ∗ (∃ r, prngReg c r))

-- Between points the accumulators hold the running sums of the point before; before the first point, anything.
def carried (c : Dev nD) (n : ℕ) (hn : n ≤ cfg1.N) : sProp 𝕄 :=
  iprop(∃ s0 s1, ⌜∀ h : n ≠ 0, s0 = sumAfter V c (n - 1) (by omega) ∧ s1 = sqAfter V c (n - 1) (by omega)⌝ ∗ held c s0 s1)

def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => meanAfter V c t
    | ⟨4, _⟩ => varAfter V c t
  Φ t := carried V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = meanAfter V c t := by dsimp only [dat1]
theorem after1_4 (c : Dev nD) (t : Fin cfg1.N) : (dat1 V c).after 4 t = varAfter V c t := by dsimp only [dat1]

-- What the body reads of an input window at a point is the window's block there.
theorem before1 (c : Dev nD) (t : Fin cfg1.N) :
    (∀ d, (dat1 V c).before 0 t d = tile1 V c 0 t) ∧ (∀ d, (dat1 V c).before 1 t d = tile1 V c 1 t)
      ∧ ∀ d, (dat1 V c).before 2 t d = tile1 V c 2 t := by
  refine ⟨fun d => ?_, fun d => ?_, fun d => ?_⟩ <;>
    exact ((dat1 V c).before_in_eq_fetched _ rfl (fun _ => rfl) (fun _ _ _ => rfl)
      (fun t => by unfold Dat.blockOf; dsimp only [dat1]; unfold tile1; try rfl) t d).trans
      (by unfold Dat.fetched Dat.blockOf tile1; rw [A_eq1]; try rfl)

abbrev m1_0 (t : Fin cfg1.N) : Memref sig .tc .vmem S5000x128 .f32 := win1_0.stage (cfg1.slots t 0)
abbrev m1_1 (t : Fin cfg1.N) : Memref sig .tc .vmem S5000x1 .f32 := win1_1.stage (cfg1.slots t 1)
abbrev m1_2 (t : Fin cfg1.N) : Memref sig .tc .vmem S1x128 .f32 := win1_2.stage (cfg1.slots t 2)
abbrev m1_3 (t : Fin cfg1.N) : Memref sig .tc .vmem S1x128 .f32 := win1_3.stage (cfg1.slots t 3)
abbrev m1_4 (t : Fin cfg1.N) : Memref sig .tc .vmem S1x128 .f32 := win1_4.stage (cfg1.slots t 4)

theorem body_obligation1 (c : Dev nD) :
    BodyObligation (dat1 (F := F) V c) (defs₀ (F := F)) Variants.none () Set.univ := fun t => by
  rw [bigSep_W1, bigSep_W1]
  show iprop((dat1 V c).Φ t.castSucc ∗ (dat1 V c).owesAt () t.castSucc
    ∗ (∃ d, owns (c : Thread nD τ) (m1_0 t) fullShare ((dat1 V c).before 0 t d))
    ∗ (∃ d, owns (c : Thread nD τ) (m1_1 t) fullShare ((dat1 V c).before 1 t d))
    ∗ (∃ d, owns (c : Thread nD τ) (m1_2 t) fullShare ((dat1 V c).before 2 t d))
    ∗ (∃ d, owns (c : Thread nD τ) (m1_3 t) fullShare ((dat1 V c).before 3 t d))
    ∗ (∃ d, owns (c : Thread nD τ) (m1_4 t) fullShare ((dat1 V c).before 4 t d)))
    ⊢ wp frame (wpE (defs₀ (F := F)) Variants.none c none) Set.univ (bodyAt1 t) (fun _ =>
      iprop(carried V c (t.val + 1) t.isLt ∗ (dat1 V c).owesAt () t.castSucc
        ∗ owns (c : Thread nD τ) (m1_0 t) fullShare ((dat1 V c).after 0 t)
        ∗ owns (c : Thread nD τ) (m1_1 t) fullShare ((dat1 V c).after 1 t)
        ∗ owns (c : Thread nD τ) (m1_2 t) fullShare ((dat1 V c).after 2 t)
        ∗ owns (c : Thread nD τ) (m1_3 t) fullShare ((dat1 V c).after 3 t)
        ∗ owns (c : Thread nD τ) (m1_4 t) fullShare ((dat1 V c).after 4 t)))
  simp only [(before1 V c t).1, (before1 V c t).2.1, (before1 V c t).2.2]
  rw [show (dat1 V c).Φ t.castSucc = carried V c t.val (Nat.le_of_lt t.isLt) by dsimp only [dat1]; simp only [Fin.coe_castSucc]]
  dsimp only [dat1]
  unfold meanAfter varAfter carried held bodyAt1
  iintro ⟨⟨%s0, %s1, %hs, HS0, HS1, Hrest, Hg⟩, Ho, ⟨%d0, H0⟩, ⟨%d1, H1⟩, ⟨%d2, H2⟩, ⟨%d3, H3⟩, ⟨%d4, H4⟩⟩
  obtain ⟨z0, z1, hz, e0, e1⟩ : ∃ z0 z1,
      (tileZero (grid1.coords t) ∧ z0 = k1_pay2 (F := F) ∧ z1 = k1_pay3 (F := F) ∨ ¬tileZero (grid1.coords t) ∧ z0 = s0 ∧ z1 = s1)
      ∧ sumAfter V c t.val t.isLt = k1_pay5 (rowsAt V c t) (scaleAt V c t) (biasAt V c t) z0
      ∧ sqAfter V c t.val t.isLt = k1_pay6 (rowsAt V c t) (scaleAt V c t) (biasAt V c t) z1 := by
    by_cases h0 : t.val % 10 = 0
    · exact ⟨_, _, .inl ⟨(tileZero_iff t).mpr h0, rfl, rfl⟩, sumAfter_first V c t h0, sqAfter_first V c t h0⟩
    · obtain ⟨rfl, rfl⟩ := hs fun e => h0 (by rw [e])
      exact ⟨_, _, .inr ⟨fun h => h0 ((tileZero_iff t).mp h), rfl, rfl⟩, sumAfter_next V c t h0, sqAfter_next V c t h0⟩
  rw [e0, e1]
  iapply (run_body c (grid1.coords t) _ _ _ _ _ _ _ _ _ _ _ _ _ _
    (rowsAt V c t) (scaleAt V c t) (biasAt V c t) _ _ s0 s1 z0 z1 hz Set.univ _)
  iframe H0 H1 H2 H3 H4 HS0 HS1
  iintro ⟨H0, H1, H2, H3, H4, HS0, HS1⟩
  iframe H0 H1 H2 H3 H4 Ho
  iexists _, _
  isplitr; · ipureintro; exact fun _ => ⟨e0.symm, e1.symm⟩
  iframe

theorem hin1 (c : Dev nD) : (Pipeline.ΦA spec1 c : sProp 𝕄) ⊢ (dat1 V c).Φ 0 := by
  rw [show (dat1 V c).Φ 0 = carried V c 0 (Nat.zero_le _) from rfl]
  unfold carried held Pipeline.ΦA; rw [scopedRest1_split]; simp only [sumBuf, sqBuf, owns_whole]
  iintro ⟨⟨⟨⟨%s0, H0⟩, ⟨%s1, H1⟩⟩, Hr⟩, Hg⟩; iexists s0, s1; isplitr
  · ipureintro; exact fun h => absurd rfl h
  · iframe

theorem hout1 (c : Dev nD) : (dat1 V c).Φ (Fin.last cfg1.N) ⊢ (Pipeline.ΦA spec1 c : sProp 𝕄) := by
  rw [show (dat1 V c).Φ (Fin.last cfg1.N) = carried V c cfg1.N (Nat.le_refl _) from rfl]
  unfold carried held Pipeline.ΦA; rw [scopedRest1_split]; simp only [sumBuf, sqBuf, owns_whole]
  iintro ⟨%s0, %s1, -, H0, H1, Hr, Hg⟩; iframe; isplitl [H0] <;> iexists _ <;> iassumption

end Cert.KernelIdeal.Hand

end
-- ==== Proof.KI.Pool.lean ====
import proofs.«403238_j23510650978598_3_alg».proof.Proof.Gen.KernelIdeal.Launch
import proofs.«403238_j23510650978598_3_alg».proof.Proof.Gen.KernelIdeal.Skeleton
import proofs.«403238_j23510650978598_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOff2 : (![0, 0] : Fin 2 → Nat) = fun _ => 0 := funext fun a => by fin_cases a <;> rfl

abbrev firstTile (i : grid2.Coords) : Prop :=
  (Scalar.cmpi .ne (Scalar.extui (Scalar.cmpi .eq (BitVec.ofNat 32 (i 1).val) 0#32)) 0#32) = 1#1

theorem firstTile_iff : ∀ t : Fin cfg2.N, firstTile (grid2.coords t) ↔ t.val % 10 = 0 :=
  (by decide +kernel : ∀ t : Fin grid2.N, firstTile (grid2.coords t) ↔ t.val % 10 = 0)

def tileStep (x0 : Vec F S5000x128 .f32) (x1 : Vec F S5000x1 .f32) (x2 x3 x4 x5 x6 : Vec F S1x128 .f32)
    (x7 : Vec F S5000x64 .bf16) (prev : Vec F S64x128 .f32) : Vec F S64x128 .f32 :=
  k2_pay1 (k2_pay3 x0 x1 x2 x4 x5 x3 x6) (k2_pay4 x7) prev

-- Reading through a whole memref is a bijection, so owning it at `X` is holding the one contents that read `X`.
theorem owns_unread (c : Dev nD) {sp : Space} {sh : Shape} {e : EltTy} {m : Memref sig .tc sp sh e} (h : m.IsWhole)
    (X : sh.Idx → Elt F e) :
    (owns (c : Thread nD τ) m fullShare X : sProp 𝕄)
      = pointsTo (m.view.loc (c : Thread nD τ)) m.view.set fullShare (h.unread X) := by
  have h₁ : (owns (c : Thread nD τ) m fullShare X : sProp 𝕄)
      ⊢ pointsTo (m.view.loc (c : Thread nD τ)) m.view.set fullShare (h.unread X) := by
    unfold owns; iintro ⟨%f, %hf, H⟩; obtain rfl := h.eq_unread hf; iexact H
  have h₂ : (_ : sProp 𝕄) ⊢ owns (c : Thread nD τ) m fullShare (m.view.read (Elt F) (h.unread X)) :=
    owns_intro (c : Thread nD τ) m fullShare (h.unread X)
  rw [h.read_unread] at h₂
  exact BI.equiv_iff.mp ⟨h₁, h₂⟩

-- A store of the whole shape, made last, covers every earlier one: the buffer then reads its payload.
theorem read_store_whole {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

set_option maxHeartbeats 4000000 in
-- The accumulator restarts from zeros at a first row tile, else goes on from `prev`; this tile's product is added.
theorem run_tile (c : Dev nD) {i : grid2.Coords}
    {a2 : Memref sig .tc .vmem S5000x128 .f32} {h2 : a2.IsWhole} {a3 : Memref sig .tc .vmem S5000x1 .f32} {h3 : a3.IsWhole}
    {a4 : Memref sig .tc .vmem S1x128 .f32} {h4 : a4.IsWhole} {a5 : Memref sig .tc .vmem S1x128 .f32} {h5 : a5.IsWhole}
    {a6 : Memref sig .tc .vmem S1x128 .f32} {h6 : a6.IsWhole} {a7 : Memref sig .tc .vmem S1x128 .f32} {h7 : a7.IsWhole}
    {a8 : Memref sig .tc .vmem S1x128 .f32} {h8 : a8.IsWhole} {a9 : Memref sig .tc .vmem S5000x64 .bf16} {h9 : a9.IsWhole}
    {a10 : Memref sig .tc .vmem S64x128 .f32} {h10 : a10.IsWhole} {a11 : Memref sig .tc .vmem S64x128 .f32} {h11 : a11.IsWhole}
    {x0 : Vec F S5000x128 .f32} {x1 : Vec F S5000x1 .f32} {x2 x3 x4 x5 x6 : Vec F S1x128 .f32}
    {x7 : Vec F S5000x64 .bf16} {y8 prev : Vec F S64x128 .f32} {E : Set ℕ} {K : PUnit → sProp 𝕄} :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare x6 ∗ owns (c : Thread nD τ) a9 fullShare x7 ∗ owns (c : Thread nD τ) a10 fullShare y8
        ∗ owns (c : Thread nD τ) a11 fullShare prev
        ∗ (iprop(owns (c : Thread nD τ) a11 fullShare (tileStep x0 x1 x2 x3 x4 x5 x6 x7 (if firstTile i then k2_pay2 (F := F) else prev))
            ∗ owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare x6 ∗ owns (c : Thread nD τ) a9 fullShare x7
            ∗ owns (c : Thread nD τ) a10 fullShare (tileStep x0 x1 x2 x3 x4 x5 x6 x7 (if firstTile i then k2_pay2 (F := F) else prev)))
          -∗ K ⟨⟩))
      ⊢ wp frame (wpE (defs₀ (F := F)) Variants.none c none) E
          (cc2__bn_relu_pool_kernel i a2 h2 a3 h3 a4 h4 a5 h5 a6 h6 a7 h7 a8 h8 a9 h9 a10 h10 a11 h11) K := by
  by_cases hc : firstTile i
  on_goal 1 => rw [if_pos hc]
  on_goal 2 => rw [if_neg hc]
  all_goals
    rw [owns_unread c h2 x0, owns_unread c h3 x1, owns_unread c h4 x2, owns_unread c h5 x3, owns_unread c h6 x4,
      owns_unread c h7 x5, owns_unread c h8 x6, owns_unread c h9 x7, owns_unread c h10 y8, owns_unread c h11 prev]
    simp only [cc2__bn_relu_pool_kernel_eq_skeleton]; unfold cc2__bn_relu_pool_kernel_skel
    simp only [k2_part1_eq_skeleton]
    iintro ⟨H0, H1, H2, H3, H4, H5, H6, H7, H8, HS, Hk⟩
    sl_exec (disch := first | exact hc)
    sl_step
    iapply Hk
    iframe H0 H1 H2 H3 H4 H5 H6 H7
    unfold owns
    isplitl [HS]
    all_goals
      iexists _; isplitr; swap; · iassumption
      ipureintro
      sl_unfold_words
      rw [read_store_whole (S := S64x128) _ _ zeroOff2]
      unfold tileStep
      simp only [View.readCov_cons_toLoadRect, View.readAt_eq_ld, Memref.IsWhole.read_unread,
        View.ld_unit_zero (S := S5000x128) zeroOff2, View.ld_unit_zero (S := S5000x1) zeroOff2,
        View.ld_unit_zero (S := S1x128) zeroOff2, View.ld_unit_zero (S := S5000x64) zeroOff2,
        View.ld_unit_zero (S := S64x128) zeroOff2]

variable (V : (c : Dev nD) → (b : Ref sig .tc) → Buf (Elt F) ((c : Thread nD τ).loc b))

def tileOf (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev featTile (c : Dev nD) (t : Fin cfg2.N) : Vec F S5000x128 .f32 := tileOf V c 0 t
abbrev dinvTile (c : Dev nD) (t : Fin cfg2.N) : Vec F S5000x1 .f32 := tileOf V c 1 t
abbrev biasTile (c : Dev nD) (t : Fin cfg2.N) : Vec F S1x128 .f32 := tileOf V c 2 t
abbrev meanTile (c : Dev nD) (t : Fin cfg2.N) : Vec F S1x128 .f32 := tileOf V c 3 t
abbrev varTile (c : Dev nD) (t : Fin cfg2.N) : Vec F S1x128 .f32 := tileOf V c 4 t
abbrev gammaTile (c : Dev nD) (t : Fin cfg2.N) : Vec F S1x128 .f32 := tileOf V c 5 t
abbrev betaTile (c : Dev nD) (t : Fin cfg2.N) : Vec F S1x128 .f32 := tileOf V c 6 t
abbrev memberTile (c : Dev nD) (t : Fin cfg2.N) : Vec F S5000x64 .bf16 := tileOf V c 7 t

def poolAcc (c : Dev nD) : (n : ℕ) → n < cfg2.N → Vec F S64x128 .f32
  | 0, hn => tileStep (featTile V c ⟨0, hn⟩) (dinvTile V c ⟨0, hn⟩) (biasTile V c ⟨0, hn⟩) (meanTile V c ⟨0, hn⟩)
      (varTile V c ⟨0, hn⟩) (gammaTile V c ⟨0, hn⟩) (betaTile V c ⟨0, hn⟩) (memberTile V c ⟨0, hn⟩) (k2_pay2 (F := F))
  | n + 1, hn => tileStep (featTile V c ⟨n + 1, hn⟩) (dinvTile V c ⟨n + 1, hn⟩) (biasTile V c ⟨n + 1, hn⟩)
      (meanTile V c ⟨n + 1, hn⟩) (varTile V c ⟨n + 1, hn⟩) (gammaTile V c ⟨n + 1, hn⟩) (betaTile V c ⟨n + 1, hn⟩)
      (memberTile V c ⟨n + 1, hn⟩)
      (if (n + 1) % 10 = 0 then k2_pay2 (F := F) else poolAcc c n (Nat.lt_of_succ_lt hn))

theorem poolAcc_first (c : Dev nD) (t : Fin cfg2.N) (h : t.val % 10 = 0) :
    poolAcc V c t.val t.isLt = tileStep (featTile V c t) (dinvTile V c t) (biasTile V c t) (meanTile V c t)
      (varTile V c t) (gammaTile V c t) (betaTile V c t) (memberTile V c t) (k2_pay2 (F := F)) := by
  obtain ⟨_ | n, hn⟩ := t
  · rfl
  · exact congrArg (tileStep _ _ _ _ _ _ _ _) (if_pos h)

theorem poolAcc_later (c : Dev nD) (t : Fin cfg2.N) (h : t.val % 10 ≠ 0) :
    poolAcc V c t.val t.isLt = tileStep (featTile V c t) (dinvTile V c t) (biasTile V c t) (meanTile V c t)
      (varTile V c t) (gammaTile V c t) (betaTile V c t) (memberTile V c t)
      (poolAcc V c (t.val - 1) (Nat.lt_of_le_of_lt (Nat.sub_le _ _) t.isLt)) := by
  obtain ⟨_ | n, hn⟩ := t
  · exact absurd (Nat.zero_mod _) h
  · exact congrArg (tileStep _ _ _ _ _ _ _ _) (if_neg h)

abbrev accRef : Memref sig .tc .vmem S64x128 .f32 := Memref.whole cc2_scratch0

abbrev restBut (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) accRef fullShare d)
          ∗ restBut c)
          ∗ (∃ r, prngReg c r)) := by
  unfold Pipeline.ΦA
  rw [Pipeline.scopedRest_split_of_list spec2 c [cc2_scratch0] (by decide) (by decide)]
  simp only [accRef, owns_whole]; rfl

-- Before position `n` the accumulator holds what the position before left; before the first, anything.
def poolInv (c : Dev nD) (n : ℕ) (hn : n ≤ cfg2.N) : sProp 𝕄 :=
  iprop(iprop((∃ d, ⌜∀ h : n ≠ 0, d = poolAcc V c (n - 1) (by omega)⌝ ∗ owns (c : Thread nD τ) accRef fullShare d)
      ∗ restBut c)
      ∗ (∃ r, prngReg c r))

def dat2 (c : Dev nD) : Dat τ (Elt F) Unit ℕ (UR sig nD τ) ℕ cfg2 c where
  A w := V c (Pipeline.arrRef spec2 w)
  after w t := match w with
    | ⟨0, _⟩ => tileOf V c 0 t
    | ⟨1, _⟩ => tileOf V c 1 t
    | ⟨2, _⟩ => tileOf V c 2 t
    | ⟨3, _⟩ => tileOf V c 3 t
    | ⟨4, _⟩ => tileOf V c 4 t
    | ⟨5, _⟩ => tileOf V c 5 t
    | ⟨6, _⟩ => tileOf V c 6 t
    | ⟨7, _⟩ => tileOf V c 7 t
    | ⟨8, _⟩ => poolAcc V c t.val t.isLt
  Φ t := poolInv V c t.val (Nat.le_of_lt_succ t.isLt)
  q _ := fullShare
  owed _ := 0

theorem A_eq2 (c : Dev nD) (w : Fin cfg2.W) : (dat2 V c).A w = V c (Pipeline.arrRef spec2 w) := rfl

theorem after2_8 (c : Dev nD) (t : Fin cfg2.N) : (dat2 V c).after 8 t = poolAcc V c t.val t.isLt := rfl

-- The body leaves the inputs as they were, so an input window holds its block of the entry array at every point.
theorem before2 (c : Dev nD) (t : Fin cfg2.N) :
    ∀ w : Fin cfg2.W, w ≠ 8 → ∀ d, (dat2 V c).before w t d = (dat2 V c).fetched w t d
  | 0, _, d | 1, _, d | 2, _, d | 3, _, d | 4, _, d | 5, _, d | 6, _, d | 7, _, d =>
    (dat2 V c).before_in_eq_fetched _ rfl (fun _ => rfl) (fun _ _ _ => rfl) (fun _ => rfl) t d
  | 8, h, _ => absurd rfl h

theorem Φ2_eq (c : Dev nD) (t : Fin (cfg2.N + 1)) :
    (dat2 V c).Φ t = poolInv V c t.val (Nat.le_of_lt_succ t.isLt) := rfl

set_option maxHeartbeats 4000000 in
-- The accumulator's contents before the point and the point's position give this position's sums, whichever branch runs.
theorem body_obligation2 (c : Dev nD) :
    BodyObligation (dat2 (F := F) V c) (defs₀ (F := F)) Variants.none () Set.univ := fun t => by
  rw [bigSep_W2, bigSep_W2]
  simp only [before2 V c t 0 (by decide), before2 V c t 1 (by decide), before2 V c t 2 (by decide), before2 V c t 3 (by decide),
    before2 V c t 4 (by decide), before2 V c t 5 (by decide), before2 V c t 6 (by decide), before2 V c t 7 (by decide)]
  rw [after2_8, Φ2_eq, Φ2_eq]; simp only [Fin.coe_castSucc]; unfold poolInv
  iintro ⟨⟨⟨⟨%d, %hd, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hacc : tileStep (featTile V c t) (dinvTile V c t) (biasTile V c t) (meanTile V c t) (varTile V c t) (gammaTile V c t)
      (betaTile V c t) (memberTile V c t) (if firstTile (grid2.coords t) then k2_pay2 (F := F) else d)
        = poolAcc V c t.val t.isLt := by
    by_cases h0 : t.val % 10 = 0
    · rw [if_pos ((firstTile_iff t).mpr h0), poolAcc_first V c t h0]
    · rw [if_neg fun h => h0 ((firstTile_iff t).mp h), poolAcc_later V c t h0, hd fun e => h0 (by rw [e])]
  rw [← hacc]
  iapply (run_tile c)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨HS, Hw⟩
  isplitl [HS HR Hg]
  · iframe HR Hg
    iexists _; isplitr; swap; · iexact HS
    ipureintro; exact fun _ => hacc
  isplitl [Ho]; · iexact Ho
  iexact Hw

theorem hin2 (c : Dev nD) : (Pipeline.ΦA spec2 c : sProp 𝕄) ⊢ (dat2 V c).Φ 0 := by
  rw [PhiA2_eq, Φ2_eq]; unfold poolInv
  iintro ⟨⟨⟨%d, HS⟩, HR⟩, Hg⟩
  iframe HR Hg
  iexists d; isplitr; · ipureintro; exact fun h => absurd rfl h
  iexact HS

theorem hout2 (c : Dev nD) : (dat2 V c).Φ (Fin.last cfg2.N) ⊢ (Pipeline.ΦA spec2 c : sProp 𝕄) := by
  rw [PhiA2_eq, Φ2_eq]; unfold poolInv
  iintro ⟨⟨⟨%d, -, HS⟩, HR⟩, Hg⟩
  iframe HR Hg
  iexists d; iexact HS

end Cert.KernelIdeal.Hand

end
-- ==== Proof.KI.Classify.lean ====
import proofs.«403238_j23510650978598_3_alg».proof.Proof.Gen.KernelIdeal.Launch
import proofs.«403238_j23510650978598_3_alg».proof.Proof.Gen.KernelIdeal.Skeleton
import proofs.«403238_j23510650978598_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def blk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev wholeP : Rect S64x256 := Rect.unit (s := S64x256) ![0, 0] S64x256.size inb_S64x256_S64x256_0_0
abbrev wholeW : Rect S60x256 := Rect.unit (s := S60x256) ![0, 0] S60x256.size inb_S60x256_S60x256_0_0
abbrev wholeB : Rect S1x60 := Rect.unit (s := S1x60) ![0, 0] S1x60.size inb_S1x60_S1x60_0_0
abbrev wholeO : Rect S64x60 := Rect.unit (s := S64x60) ![0, 0] S64x60.size inb_S64x60_S64x60_0_0

-- What the single store leaves in the output block, as a function of the three input blocks.
def logp3 (p : Vec F S64x256 .f32) (wf : Vec F S60x256 .f32) (bf : Vec F S1x60 .f32) : Vec F S64x60 .f32 :=
  View.canon [⟨wholeO, k3_pay1 (View.ld p wholeP) (View.ld wf wholeW) (View.ld bf wholeB)⟩]

-- The body reads its three inputs whole and overwrites the whole output, so the output ends at `logp3` of the inputs.
theorem sound_kernel3 (E : Set ℕ) (i : grid3.Coords)
    (a1 : Memref sig .tc .vmem S64x256 .f32) (h1 : a1.IsWhole) (a2 : Memref sig .tc .vmem S60x256 .f32) (h2 : a2.IsWhole)
    (a3 : Memref sig .tc .vmem S1x60 .f32) (h3 : a3.IsWhole) (a4 : Memref sig .tc .vmem S64x60 .f32) (h4 : a4.IsWhole)
    (x0 : Vec F S64x256 .f32) (x1 : Vec F S60x256 .f32) (x2 : Vec F S1x60 .f32) (K : PUnit → sProp 𝕄) :
    iprop(owns c a1 fullShare x0 ∗ owns c a2 fullShare x1 ∗ owns c a3 fullShare x2
        ∗ (∃ d, owns c a4 fullShare d)
        ∗ (iprop(owns c a1 fullShare x0 ∗ owns c a2 fullShare x1 ∗ owns c a3 fullShare x2
            ∗ owns c a4 fullShare (logp3 x0 x1 x2)) -∗ K ⟨⟩))
      ⊢ wp frame (wpE (defs₀ (F := F)) Variants.none c none) E (cc3__fc_kernel i a1 h1 a2 h2 a3 h3 a4 h4) K := by
  simp only [cc3__fc_kernel_eq_skeleton]; unfold cc3__fc_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S64x60.size (by rfl))

def dat3 : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => logp3 (blk3 V c 0 t) (blk3 V c 1 t) (blk3 V c 2 t)
  Φ _ := Pipeline.ΦA spec3 c
  q _ := fullShare
  owed _ := 0

theorem A_eq3 (w : Fin cfg3.W) : (dat3 V c).A w = V c (Pipeline.arrRef spec3 w) := rfl

theorem after3_0 (t : Fin cfg3.N) : (dat3 V c).after 0 t = blk3 V c 0 t := rfl
theorem after3_1 (t : Fin cfg3.N) : (dat3 V c).after 1 t = blk3 V c 1 t := rfl
theorem after3_2 (t : Fin cfg3.N) : (dat3 V c).after 2 t = blk3 V c 2 t := rfl
theorem after3_3 (t : Fin cfg3.N) : (dat3 V c).after 3 t = logp3 (blk3 V c 0 t) (blk3 V c 1 t) (blk3 V c 2 t) := rfl

-- The body never writes an input, so at every point each input still holds its block.
theorem before3 (t : Fin cfg3.N) :
    (∀ d, (dat3 V c).before 0 t d = blk3 V c 0 t) ∧ (∀ d, (dat3 V c).before 1 t d = blk3 V c 1 t)
      ∧ ∀ d, (dat3 V c).before 2 t d = blk3 V c 2 t := by
  refine ⟨?_, ?_, ?_⟩ <;> exact fun d =>
    ((dat3 V c).before_in_eq_fetched _ rfl (fun _ => rfl) (fun _ _ _ => rfl) (fun _ => rfl) t d).trans rfl

theorem body_obligation3 : BodyObligation (dat3 (F := F) V c) (defs₀ (F := F)) Variants.none () Set.univ := fun t => by
  obtain ⟨b0, b1, b2⟩ := before3 V c t
  simp only [bigSep_W3, b0, b1, b2, after3_0, after3_1, after3_2, after3_3]
  rw [show (dat3 V c).Φ t.succ = (dat3 V c).Φ t.castSucc from rfl,
    show (dat3 V c).owesAt () t.succ = (dat3 V c).owesAt () t.castSucc from rfl]
  sl_whnfR [defs₀, Defs.onTc]
  iintro ⟨HΦ, Ho, ⟨%_, H0⟩, ⟨%_, H1⟩, ⟨%_, H2⟩, ⟨%d3, H3⟩⟩
  iapply sound_kernel3 c Set.univ _ _ _ _ _ _ _ _ _ (blk3 V c 0 t) (blk3 V c 1 t) (blk3 V c 2 t) _
  iframe
  isplitl [H3]; · iexists _; iexact H3
  iintro ⟨H0, H1, H2, H3⟩
  iframe

theorem hin3 : (Pipeline.ΦA spec3 c : sProp 𝕄) ⊢ (dat3 V c).Φ 0 := .rfl

theorem hout3 : (dat3 V c).Φ (Fin.last cfg3.N) ⊢ (Pipeline.ΦA spec3 c : sProp 𝕄) := .rfl

end Cert.KernelIdeal.Hand

end
-- ==== Proof.KI.Run.lean ====
import proofs.«403238_j23510650978598_3_alg».proof.Proof.Gen.KernelIdeal.Regions
import proofs.«403238_j23510650978598_3_alg».proof.Proof.KI.Matmul
import proofs.«403238_j23510650978598_3_alg».proof.Proof.KI.Stats
import proofs.«403238_j23510650978598_3_alg».proof.Proof.KI.Pool
import proofs.«403238_j23510650978598_3_alg».proof.Proof.KI.Classify
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- Each stage is the one before it, updated at a region's output arrays.
def at4 (c : Dev nD) : Valuation τ sig (Elt F) :=
  Function.update (Gen.V3 m c) main_v21 ((dat0 (fun c b => Gen.V3 m c b) c).arrAt 3 cfg0.N)
def at5 (c : Dev nD) : Valuation τ sig (Elt F) := StableHlo.after hostOps1 (at4 m c)
def at6 (c : Dev nD) : Valuation τ sig (Elt F) :=
  Function.update (Function.update (at5 m c) main_v37_0 ((dat1 (fun c b => at5 m c b) c).arrAt 3 cfg1.N))
    main_v37_1 ((dat1 (fun c b => at5 m c b) c).arrAt 4 cfg1.N)
def at7 (c : Dev nD) : Valuation τ sig (Elt F) := StableHlo.after hostOps2 (at6 m c)
def at8 (c : Dev nD) : Valuation τ sig (Elt F) :=
  Function.update (at7 m c) main_v49 ((dat2 (fun c b => at7 m c b) c).arrAt 8 cfg2.N)
def at9 (c : Dev nD) : Valuation τ sig (Elt F) := StableHlo.after hostOps3 (at8 m c)
def at10 (c : Dev nD) : Valuation τ sig (Elt F) :=
  Function.update (at9 m c) main_v56 ((dat3 (fun c b => at9 m c b) c).arrAt 3 cfg3.N)

def outs : Gen.Outs (F := F) := fun J r c =>
  match J with
  | 4 => at4 m c r
  | 6 => at6 m c r
  | 8 => at8 m c r
  | 10 => at10 m c r
  | _ => Gen.V0 m c r

theorem ne_v37 : (Proc.devRef .tc main_v37_0 : DevRef τ sig) ≠ Proc.devRef .tc main_v37_1 :=
  StableHlo.devRef_ne_of_ne (by decide)

-- An update read where it was made is the value written, so the generated valuations at `outs` are the stages.
theorem V4_at (c : Dev nD) : Gen.V4 m (outs m) c = at4 m c := by
  show Function.update (Gen.V3 m c) main_v21 (at4 m c main_v21) = _
  unfold at4; rw [Function.update_self]
theorem V6_at (c : Dev nD) : Gen.V6 m (outs m) c = at6 m c := by
  show Function.update (Function.update (StableHlo.after hostOps1 (Gen.V4 m (outs m) c)) main_v37_0 (at6 m c main_v37_0)) main_v37_1 (at6 m c main_v37_1) = _
  rw [V4_at]; unfold at6
  rw [Function.update_self, Function.update_of_ne ne_v37, Function.update_self]; rfl
theorem V8_at (c : Dev nD) : Gen.V8 m (outs m) c = at8 m c := by
  show Function.update (StableHlo.after hostOps2 (Gen.V6 m (outs m) c)) main_v49 (at8 m c main_v49) = _
  rw [V6_at]; unfold at8; rw [Function.update_self]; rfl
theorem V10_at (c : Dev nD) : Gen.V10 m (outs m) c = at10 m c := by
  show Function.update (StableHlo.after hostOps3 (Gen.V8 m (outs m) c)) main_v56 (at10 m c main_v56) = _
  rw [V8_at]; unfold at10; rw [Function.update_self]; rfl

abbrev E0 : (c : Dev nD) → (b : Ref sig .tc) → Buf (Elt F) ((c : Thread nD τ).loc b) := fun c b => Gen.V3 m c b
abbrev E1 : (c : Dev nD) → (b : Ref sig .tc) → Buf (Elt F) ((c : Thread nD τ).loc b) := fun c b => Gen.V5 m (outs m) c b
abbrev E2 : (c : Dev nD) → (b : Ref sig .tc) → Buf (Elt F) ((c : Thread nD τ).loc b) := fun c b => Gen.V7 m (outs m) c b
abbrev E3 : (c : Dev nD) → (b : Ref sig .tc) → Buf (Elt F) ((c : Thread nD τ).loc b) := fun c b => Gen.V9 m (outs m) c b

theorem E1_at : E1 m = fun c (b : Ref sig .tc) => at5 m c b :=
  funext fun c => funext fun b => congrFun (congrArg (StableHlo.after hostOps1) (V4_at m c)) b
theorem E2_at : E2 m = fun c (b : Ref sig .tc) => at7 m c b :=
  funext fun c => funext fun b => congrFun (congrArg (StableHlo.after hostOps2) (V6_at m c)) b
theorem E3_at : E3 m = fun c (b : Ref sig .tc) => at9 m c b :=
  funext fun c => funext fun b => congrFun (congrArg (StableHlo.after hostOps3) (V8_at m c)) b

theorem outs_features (c : Dev nD) : outs m 4 main_v21 c = (dat0 (E0 m) c).arrAt 3 cfg0.N := by
  show at4 m c main_v21 = _; unfold at4; exact Function.update_self ..
theorem outs_mean (c : Dev nD) : outs m 6 main_v37_0 c = (dat1 (E1 m) c).arrAt 3 cfg1.N := by
  rw [E1_at]; show at6 m c main_v37_0 = _; unfold at6
  exact (Function.update_of_ne ne_v37 ..).trans (Function.update_self ..)
theorem outs_var (c : Dev nD) : outs m 6 main_v37_1 c = (dat1 (E1 m) c).arrAt 4 cfg1.N := by
  rw [E1_at]; show at6 m c main_v37_1 = _; unfold at6; exact Function.update_self ..
theorem outs_pool (c : Dev nD) : outs m 8 main_v49 c = (dat2 (E2 m) c).arrAt 8 cfg2.N := by
  rw [E2_at]; show at8 m c main_v49 = _; unfold at8; exact Function.update_self ..
theorem outs_result (c : Dev nD) : outs m 10 main_v56 c = (dat3 (E3 m) c).arrAt 3 cfg3.N := by
  rw [E3_at]; show at10 m c main_v56 = _; unfold at10; exact Function.update_self ..

def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

theorem pdats_plain : ∀ (p : Fin 4) (c : Dev nD), (∀ w, (pdats m p c).q w = fullShare)
    ∧ (∀ t, (pdats m p c).owed t = 0) ∧ ∀ t, (pdats m p c).recorded t = Set.univ
  | ⟨0, _⟩, _ | ⟨1, _⟩, _ | ⟨2, _⟩, _ | ⟨3, _⟩, _ => ⟨fun _ => rfl, fun _ => rfl, fun _ => rfl⟩

abbrev pairs : GSem nD τ sig → Finset Unit := fun _ => ∅
abbrev levels : GSem nD τ sig → Unit → ℕ := fun _ _ => 0
abbrev beside (c : Dev nD) : sProp 𝕄 :=
  iprop((∃ r, prngReg c r) ∗ ∃ W, owes (c : Thread nD τ) (0 : CellTallies nD τ sig Unit) W)

-- Region `p` as a segment from `Vin` to `Vout`, which agrees with `Vin` off the list `L` of output arrays.
def regionOf (p : Fin 4) (lf : Pipeline.LaunchFacts (nD := nD) (τ := τ) cfgs p) (Vin Vout : Dev nD → Valuation τ sig (Elt F))
    (L : List (Ref sig .tc)) (hof : ∀ c (r : Ref sig .tc), r ∉ L → Vout c r = Vin c r)
    (hkept : ∀ w, ((cfgs p).win w).isOut = false → Pipeline.arrRef (cfgs p).spec w ∉ L)
    (hL : ∀ r ∈ L, r ∈ Finset.univ.image (Pipeline.arrRef (cfgs p).spec))
    (hA : ∀ c w, (pdats m p c).A w = Vin c (Pipeline.arrRef (cfgs p).spec w))
    (hO : ∀ c w, ((cfgs p).win w).isOut = true → (pdats m p c).arrAt w (cfgs p).N = Vout c (Pipeline.arrRef (cfgs p).spec w))
    (hbody : ∀ c, BodyObligation (pdats m p c) (defs₀ (F := F)) Variants.none () Set.univ)
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄)) :
    Pipeline.RegionSeg (pcfgs (F := F)) Gen.adm (pdats m) () defs₀ Variants.none pairs levels p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ pairs levels p fun c => (pdats_plain m p c).2.1
  pre c := iprop(StableHlo.held (c : Thread nD τ) (Pipeline.ucRefs τ sig) (Vin c) ∗ beside c)
  post c := iprop(StableHlo.held (c : Thread nD τ) (Pipeline.ucRefs τ sig) (Vout c) ∗ beside c)
  X c := iprop(∃ r, prngReg c r)
  Y c := iprop(∃ r, prngReg c r)
  Z c := Pipeline.unscopedRest (cfgs p).spec c fun b => Vin c b
  hentry c := by
    rw [Pipeline.ownSems0_none]
    have hsplit := Pipeline.arrays_of_unscopedBufs (p := p) (pcfgs (F := F)) Gen.adm (pdats m) lf.win lf.arr_whole c
      ((pdats m p c).share_full (pdats_plain m p c).1) (fun b => Vin c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound
    rw [(pdats_plain m p c).2.1, (pdats_plain m p c).2.2]
    icases HO with ⟨%W, HO⟩; iexists W; iframe; ipureintro; exact fun _ _ => Or.inl trivial
  hin c := by
    refine BIBase.Entails.trans ?_ (hin c)
    unfold Pipeline.ΦA
    iintro ⟨Hp, -, Hr⟩
    iframe
  hout c := by
    refine BIBase.Entails.trans (hout c) ?_
    rw [Pipeline.ownSems0_none]; unfold Pipeline.ΦA
    iintro ⟨Hr, Hp⟩
    iframe; iempintro
  hexit c := by
    have hF : ∀ w, (pdats m p c).arrAt w (cfgs p).N = Vout c (Pipeline.arrRef (cfgs p).spec w) := fun w => by
      cases hw : ((cfgs p).win w).isOut
      · exact ((pdats m p c).arrAt_in w hw _).trans ((hA c w).trans (hof c _ (hkept w hw)).symm)
      · exact hO c w hw
    have hjoin := Pipeline.unscopedBufs_of_arrays (p := p) (pcfgs (F := F)) Gen.adm lf.win lf.arr_whole c (pdats m) ((pdats m p c).share_full (pdats_plain m p c).1)
      (fun b => Vin c b) (fun b => Vout c b) ((pdats m p c).arrAt · (cfgs p).N) hF fun b hb => hof c b fun hm => hb (hL b hm)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin
    rw [(pdats_plain m p c).2.1]
    icases HO with ⟨%W, -, HO⟩; iexists W; iexact HO

def region0 := regionOf m 0 launch0 (Gen.V3 m) (Gen.V4 m (outs m)) [main_v21] (Gen.V4_of m (outs m)) (by decide) (by decide)
  (A_eq0 (E0 m)) (fun c w hw => by
    obtain rfl : w = 3 := (by decide : ∀ w : Fin 4, (cfg0.win w).isOut = true → w = 3) w hw
    rw [V4_at]; exact (outs_features m c).symm)
  (body_obligation0 (E0 m)) (hin0 (E0 m)) (hout0 (E0 m))

def region1 := regionOf m 1 launch1 (Gen.V5 m (outs m)) (Gen.V6 m (outs m)) [main_v37_0, main_v37_1] (Gen.V6_of m (outs m))
  (by decide) (by decide) (A_eq1 (E1 m)) (fun c w hw => by
    rw [V6_at]
    rcases (by decide : ∀ w : Fin 5, (cfg1.win w).isOut = true → w = 3 ∨ w = 4) w hw with rfl | rfl
    exacts [(outs_mean m c).symm, (outs_var m c).symm])
  (body_obligation1 (E1 m)) (hin1 (E1 m)) (hout1 (E1 m))

def region2 := regionOf m 2 launch2 (Gen.V7 m (outs m)) (Gen.V8 m (outs m)) [main_v49] (Gen.V8_of m (outs m)) (by decide) (by decide)
  (A_eq2 (E2 m)) (fun c w hw => by
    obtain rfl : w = 8 := (by decide : ∀ w : Fin 9, (cfg2.win w).isOut = true → w = 8) w hw
    rw [V8_at]; exact (outs_pool m c).symm)
  (body_obligation2 (E2 m)) (hin2 (E2 m)) (hout2 (E2 m))

def region3 := regionOf m 3 launch3 (Gen.V9 m (outs m)) (Gen.V10 m (outs m)) [main_v56] (Gen.V10_of m (outs m)) (by decide) (by decide)
  (A_eq3 (E3 m)) (fun c w hw => by
    obtain rfl : w = 3 := (by decide : ∀ w : Fin 4, (cfg3.win w).isOut = true → w = 3) w hw
    rw [V10_at]; exact (outs_result m c).symm)
  (body_obligation3 (E3 m)) (hin3 (E3 m)) (hout3 (E3 m))

theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ fun _ : Dev nD => (BI.emp : sProp 𝕄)) := by
  rw [BI.bigSep_emp_const, ownU_emb₁]
  iintro Hu; imodintro
  isplitl [Hu]; · iexact Hu
  iempintro

theorem launch_beside : iprop((bigSep Finset.univ fun c : Dev nD => iprop(unscopedSems0 c
      ∗ owes (c : Thread nD τ) ((0 : Dev nD → CellTallies nD τ sig Unit) c) ∅ ∗ Pipeline.launchCred (0 : Dev nD → CellTallies nD τ sig Unit) c
      ∗ prngReg c (ρ c) ∗ (BI.emp : sProp 𝕄))) ∗ levAts pairs levels)
    ⊢ (|={Set.univ}=> bigSep Finset.univ (beside (F := F)) : sProp 𝕄) :=
  Pipeline.initEach pairs levels fun c => by
    iintro ⟨⟨-, HO, -, Hp, -⟩, -⟩
    imodintro
    isplitl [Hp]; · iexists _; iexact Hp
    iexists ∅; iexact HO

theorem beside_owes (c : Dev nD) :
    beside (F := F) c ⊢ iprop(∃ W, owes (c : Thread nD τ) (0 : CellTallies nD τ sig Unit) W) := by
  iintro ⟨-, HO⟩; iexact HO

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m emb₁ () Variants.none pairs levels (fun _ _ => rfl) ρ (outs m) (pdats m) (O₀ := 0) (G := fun _ => iprop(emp))
    (u₀ := _) (hu₀ := launch_elem) (E := fun _ => beside) (hE0 := launch_beside ρ) (hE4 := beside_owes)
    (region0 m) (fun _ => .rfl) (fun _ => .rfl) (region1 m) (fun _ => .rfl) (fun _ => .rfl)
    (region2 m) (fun _ => .rfl) (fun _ => .rfl) (region3 m) (fun _ => .rfl) (fun _ => .rfl)

end Cert.KernelIdeal.Hand

end
-- ==== Proof.Stages.lean ====
import Idealize.ShloMosaic.PureOps.Ideal
import Idealize.ShloMosaic.Lib.ValueIdx

noncomputable section

namespace Cert.GcnPool

open Idealize.ShloMosaic
open scoped BigOperators

-- The node count 50000.0 and the variance's stabilizer, as the f32 words both programs use.
abbrev nodesWord : EReal := Ideal.ofBits .f32 0x47435000#32
abbrev epsWord : EReal := Ideal.ofBits .f32 0x3727C5AC#32

-- The edges whose destination word, read signed, is node n; the nodes whose graph word, read signed, is graph g.
abbrev arriving (dst : Fin 850000 → BitVec 32) (n : Fin 50000) : Finset (Fin 850000) :=
  Finset.univ.filter fun e => (dst e).toInt = (n.val : Int)

abbrev members (batch : Fin 50000 → BitVec 32) (g : Fin 64) : Finset (Fin 50000) :=
  Finset.univ.filter fun n => (batch n).toInt = (g.val : Int)

def xw (x : Fin 50000 → Fin 256 → EReal) (W : Fin 256 → Fin 256 → EReal) (i : Fin 50000) (q : Fin 256) : EReal :=
  ∑ k : Fin 256, x i k * W k q

-- The layer's output with the destination's degree scale as a factor of the whole edge sum,
def aggFactored (f : Fin 50000 → Fin 256 → EReal) (bias : Fin 256 → EReal) (src : Fin 850000 → Fin 50000)
    (dst : Fin 850000 → BitVec 32) (dinv : Fin 50000 → EReal) (n : Fin 50000) (q : Fin 256) : EReal :=
  (∑ e ∈ arriving dst n, f (src e) q * dinv (src e)) * dinv n + bias q

-- and with both ends' degree scales inside every edge's term.
def aggPerEdge (f : Fin 50000 → Fin 256 → EReal) (bias : Fin 256 → EReal) (src : Fin 850000 → Fin 50000)
    (dst : Fin 850000 → BitVec 32) (dinv : Fin 50000 → EReal) (dinvDst : Fin 850000 → EReal) (n : Fin 50000) (q : Fin 256) : EReal :=
  (∑ e ∈ arriving dst n, f (src e) q * (dinv (src e) * dinvDst e)) + bias q

def meanOf (a : Fin 50000 → Fin 256 → EReal) (q : Fin 256) : EReal := Ideal.div (∑ n : Fin 50000, a n q) nodesWord

-- A channel's variance as the mean of squares less the squared mean, clamped at zero,
def varMoments (a : Fin 50000 → Fin 256 → EReal) (q : Fin 256) : EReal :=
  max (Ideal.div (∑ n : Fin 50000, a n q * a n q) nodesWord - meanOf a q * meanOf a q) 0

-- and as the mean squared deviation from the mean.
def varCentered (a : Fin 50000 → Fin 256 → EReal) (q : Fin 256) : EReal :=
  Ideal.div (∑ n : Fin 50000, (a n q - meanOf a q) * (a n q - meanOf a q)) nodesWord

def actOf (a : Fin 50000 → Fin 256 → EReal) (mu va gamma beta : Fin 256 → EReal) (n : Fin 50000) (q : Fin 256) : EReal :=
  max (gamma q * (a n q - mu q) * Ideal.rsqrt (va q + epsWord) + beta q) 0

-- A graph's activations summed through a zero-one membership table over all nodes,
def poolTable (tbl : Fin 50000 → Fin 64 → EReal) (h : Fin 50000 → Fin 256 → EReal) (g : Fin 64) (q : Fin 256) : EReal :=
  ∑ n : Fin 50000, tbl n g * h n q

-- and summed over the graph's own nodes.
def poolMembers (batch : Fin 50000 → BitVec 32) (h : Fin 50000 → Fin 256 → EReal) (g : Fin 64) (q : Fin 256) : EReal :=
  ∑ n ∈ members batch g, h n q

def countOf (batch : Fin 50000 → BitVec 32) (one : EReal) (g : Fin 64) : EReal := ∑ _n ∈ members batch g, one

-- A graph's mean activation; an empty graph divides by one.
def meanPool (s : Fin 64 → Fin 256 → EReal) (cnt : Fin 64 → EReal) (one : EReal) (g : Fin 64) (q : Fin 256) : EReal :=
  Ideal.div (s g q) (max (cnt g) one)

def logitsOf (p : Fin 64 → Fin 256 → EReal) (Wf : Fin 60 → Fin 256 → EReal) (bf : Fin 60 → EReal) (g : Fin 64) (k : Fin 60) : EReal :=
  (∑ q : Fin 256, p g q * Wf k q) + bf k

def logSoftmax (l : Fin 64 → Fin 60 → EReal) (g : Fin 64) (k : Fin 60) : EReal :=
  (l g k - Finset.univ.sup (l g)) - Ideal.log (∑ k' : Fin 60, Ideal.exp (l g k' - Finset.univ.sup (l g)))

end Cert.GcnPool

end
-- ==== Proof.LibPlainDot.lean ====
import Idealize.ShloMosaic.Lib.StackMember

noncomputable section

open scoped BigOperators

namespace Cert.PlainDot

open Idealize.ShloMosaic Idealize.ShloMosaic.ValueIdx

variable {M K N : ℕ}

-- Entry (r, c) of a product of an M×K by a K×N matrix is the sum over the K inner coordinates of l (r, k) * r (k, c).
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  subst hd
  rw [Ideal.dotGeneral_apply, ← Ideal.dotGeneral_apply _ prec .single]
  exact (congrArg _ (eq_ix2 j)).trans (StackMember.dotGeneral_plain_apply prec l r (j 0) (j 1))

theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply, ← Ideal.dotGeneral_apply d prec .single]
  exact dotGeneral_apply d hd prec _ l r j

end Cert.PlainDot

end
-- ==== Proof.KI.MatmulValue.lean ====
import proofs.«403238_j23510650978598_3_alg».proof.Proof.KI.Matmul
import proofs.«403238_j23510650978598_3_alg».proof.Proof.Stages
import proofs.«403238_j23510650978598_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx
open scoped BigOperators

variable (V : (c : Dev nD) → (b : Ref sig .tc) → Buf (Elt Ideal) ((c : Thread nD τ).loc b))

-- A tile's entry: a row of features against a column of weights, times the row's scale.
theorem scaledProduct_apply (x : Vec Ideal S5000x256 .f32) (w : Vec Ideal S256x256 .f32) (s : Vec Ideal S5000x1 .f32)
    (r : Fin 5000) (q : Fin 256) :
    (k0_pay1 (F := Ideal) x w s : S5000x256.Idx → EReal) (ix2 r q)
      = (∑ k : Fin 256, (x : S5000x256.Idx → EReal) (ix2 r k) * (w : S256x256.Idx → EReal) (ix2 k q)) * (s : S5000x1.Idx → EReal) (ix2 r 0) := by
  unfold k0_pay1
  rw [shapeCast_self, mulf_apply,
    broadcastTo_apply s broadcasts_S5000x1_S5000x256 (ix2 r q) (ix2 r 0) fun a => by fin_cases a <;> rfl]
  exact congrArg (· * _) (Cert.PlainDot.matmul_zero_apply (M := 5000) (K := 256) (N := 256) _ rfl none _ _ (ix2 r q))

theorem matmul_tileIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

abbrev scaledFeatures (x : S50000x256.Idx → EReal) (w : S256x256.Idx → EReal) (s : S50000x1.Idx → EReal) : S50000x256.Idx → EReal :=
  fun j => (∑ k : Fin 256, x (ix2 (j 0) k) * w (ix2 k (j 1))) * s (ix2 (j 0) 0)

-- Every tile's entry sits in its array at tile index times tile size plus its own coordinate, so the three input tiles line up with the output tile.
theorem matmul_flushed_eq (c : Dev nD) (t : Fin cfg0.N) :
    (dat0 (F := Ideal) V c).flushed 3 t
      = ((cfg0.win 3).blk t).view.read (Elt Ideal) (scaledFeatures (V c main_arg0) (V c main_arg3) (V c main_v20)) := by
  have hz : (![0, 0] : Fin 2 → Nat) = fun _ => 0 := by decide
  show (cfg0.win 3).cut (grid0.coords t) ((dat0 V c).after 3 t) = _
  rw [after0_out]
  unfold scaledTile0
  rw [View.canon_unit_zero hz]
  simp only [View.ld_unit_zero (S := S5000x256) hz, View.ld_unit_zero (S := S256x256) hz, View.ld_unit_zero (S := S5000x1) hz]
  obtain ⟨e00, e01, e10, e11, e20, e21, e30, e31⟩ := matmul_tileIndex_facts t
  refine funext fun (y : S5000x256.Idx) => ?_
  obtain ⟨r, q, rfl⟩ : ∃ (r : Fin 5000) (q : Fin 256), y = ix2 r q := ⟨y 0, y 1, eq_ix2 y⟩
  refine (scaledProduct_apply _ _ _ r q).trans ?_
  show _ = scaledFeatures (V c main_arg0) (V c main_arg3) (V c main_v20) (((cfg0.win 3).blk t).view.emb (ix2 r q))
  refine congrArg₂ (· * ·) (Finset.sum_congr rfl fun k _ => congrArg₂ (· * ·) ?_ ?_) ?_
  · exact congrArg (V c main_arg0) (Shape.idx_ext₂
      (by show _ * 5000 + 1 * r.val = _ * 5000 + 1 * r.val; rw [e00, e30])
      (by show _ * 256 + 1 * k.val = k.val; rw [e01]; omega))
  · exact congrArg (V c main_arg3) (Shape.idx_ext₂
      (by show _ * 256 + 1 * k.val = k.val; rw [e10]; omega)
      (by show _ * 256 + 1 * q.val = _ * 256 + 1 * q.val; rw [e11, e31]))
  · exact congrArg (V c main_v20) (Shape.idx_ext₂
      (by show _ * 5000 + 1 * r.val = _ * 5000 + 1 * r.val; rw [e20, e30])
      (by show _ * 1 + 1 * (0 : Fin 1).val = (0 : Fin 1).val; rw [e21]; omega))

-- Row n of the output lies in the tile of point n / 5000.
theorem matmul_out_tiles_cover (i : S50000x256.Idx) :
    ∃ t : Fin cfg0.N, (cfg0.win 3).flush t = true ∧ i ∈ ((cfg0.win 3).blk t).view.set := by
  have hi0 : (i 0).val < 50000 := idx2_lt0 i
  have hi1 : (i 1).val < 256 := idx2_lt1 i
  have hN : cfg0.N = 10 := N_0
  obtain ⟨t, ht⟩ : ∃ t : Fin cfg0.N, t.val = (i 0).val / 5000 := ⟨⟨_, by rw [hN]; omega⟩, rfl⟩
  obtain ⟨-, -, -, -, -, -, e0, e1⟩ := matmul_tileIndex_facts t
  refine ⟨t, flush0_3 t, ?_⟩
  show i ∈ ((View.whole main_v21).slice (win0_3.rect t)).set
  rw [View.set_slice_whole, Rect.mem_set_unit]
  intro a
  match a with
  | ⟨0, _⟩ =>
    show win0_3.index t (0 : Fin 2) * 5000 ≤ (i 0).val ∧ (i 0).val < win0_3.index t (0 : Fin 2) * 5000 + 5000
    rw [e0]; omega
  | ⟨1, _⟩ =>
    show win0_3.index t (1 : Fin 2) * 256 ≤ (i 1).val ∧ (i 1).val < win0_3.index t (1 : Fin 2) * 256 + 256
    rw [e1]; omega

theorem scaled_features_value (c : Dev nD) (i : Fin 50000) (q : Fin 256) :
    ((dat0 (F := Ideal) V c).arrAt 3 cfg0.N : S50000x256.Idx → EReal) (ix2 i q)
      = Cert.GcnPool.xw (fun i k => (V c main_arg0 : S50000x256.Idx → EReal) (ix2 i k))
          (fun k q => (V c main_arg3 : S256x256.Idx → EReal) (ix2 k q)) i q
        * (V c main_v20 : S50000x1.Idx → EReal) (ix2 i 0) := by
  rw [(dat0 (F := Ideal) V c).arrAt_eq_of_cover 3 (scaledFeatures (V c main_arg0) (V c main_arg3) (V c main_v20))
    (fun t _ => matmul_flushed_eq V c t) matmul_out_tiles_cover]
  rfl

end Cert.KernelIdeal.Hand

end
-- ==== Proof.KI.StatsValue.lean ====
import proofs.«403238_j23510650978598_3_alg».proof.Proof.KI.Stats
import proofs.«403238_j23510650978598_3_alg».proof.Proof.Stages
import Idealize.ShloMosaic.Lib.ValueLayout
import Idealize.ShloMosaic.PureOps.Ideal.Laws

noncomputable section

namespace Cert.KernelIdeal.Hand

open Cert.KernelIdeal Cert.KernelIdeal.Gen Cert.GcnPool
open Idealize.ShloMosaic Idealize.ShloMosaic.TcCoe Idealize.ShloMosaic.ValueIdx
open Idealize.ShloMosaic.Pipeline (Dat)
open scoped BigOperators

theorem stats_layerTile_apply (x : Vec Ideal S5000x128 .f32) (s : Vec Ideal S5000x1 .f32) (b : Vec Ideal S1x128 .f32)
    (r : Fin 5000) (l : Fin 128) :
    (k1_pay4 (F := Ideal) x s b : S5000x128.Idx → EReal) (ix2 r l)
      = (x : S5000x128.Idx → EReal) (ix2 r l) * (s : S5000x1.Idx → EReal) (ix2 r 0) + (b : S1x128.Idx → EReal) (ix2 0 l) := by
  unfold k1_pay4
  simp only [shapeCast_self]
  rw [addf_apply, mulf_apply, broadcastTo_1b_ab_apply,
    broadcastTo_apply s broadcasts_S5000x1_S5000x128 (ix2 r l) (ix2 r 0) fun a => by
      match a with
      | ⟨0, _⟩ => rfl
      | ⟨1, _⟩ => rfl]

theorem stats_columnSum_apply (v : FVec Ideal S5000x128 .f32) (l : Fin 128) :
    (shapeCast S1x128 (multiReduction (F := Ideal) .add [0] S128 v 0x00000000#32 reduces_S5000x128_S128 (.inl rfl) rfl)
        shapeCasts_S128_S1x128 : S1x128.Idx → EReal) (ix2 0 l)
      = ∑ r : Fin 5000, (v : S5000x128.Idx → EReal) (ix2 r l) := by
  rw [shapeCast_a_1a_apply]
  refine (Ideal.multiReduction_add_single v _ reduces_S5000x128_S128 (.inl rfl) rfl (ix1 l)).trans ?_
  refine Finset.sum_congr rfl fun r _ => congrArg v (funext fun a => ?_)
  match a with
  | ⟨0, _⟩ => rfl
  | ⟨1, _⟩ => rfl

theorem stats_sumStep_apply (x : Vec Ideal S5000x128 .f32) (s : Vec Ideal S5000x1 .f32) (b acc : Vec Ideal S1x128 .f32) (l : Fin 128) :
    (k1_pay5 (F := Ideal) x s b acc : S1x128.Idx → EReal) (ix2 0 l)
      = (acc : S1x128.Idx → EReal) (ix2 0 l) + ∑ r : Fin 5000, (k1_pay4 (F := Ideal) x s b : S5000x128.Idx → EReal) (ix2 r l) := by
  unfold k1_pay5
  rw [shapeCast_self, addf_apply, stats_columnSum_apply]

theorem stats_sqStep_apply (x : Vec Ideal S5000x128 .f32) (s : Vec Ideal S5000x1 .f32) (b acc : Vec Ideal S1x128 .f32) (l : Fin 128) :
    (k1_pay6 (F := Ideal) x s b acc : S1x128.Idx → EReal) (ix2 0 l)
      = (acc : S1x128.Idx → EReal) (ix2 0 l)
        + ∑ r : Fin 5000, (fun y => y * y) ((k1_pay4 (F := Ideal) x s b : S5000x128.Idx → EReal) (ix2 r l)) := by
  unfold k1_pay6
  rw [shapeCast_self, addf_apply, stats_columnSum_apply]
  rfl

theorem stats_zero_apply (j : S1x128.Idx) : (k1_pay2 (F := Ideal) : S1x128.Idx → EReal) j = 0 := by
  unfold k1_pay2
  rw [shapeCast_self]
  exact Ideal.ofBits_zero_f32

-- ten tiles of 5000 rows are the 50000 nodes: node 5000 s + r is row r of tile s
theorem stats_sum_tiles (g : ℕ → EReal) :
    ∑ s ∈ Finset.range 10, ∑ r : Fin 5000, g (5000 * s + r.val) = ∑ n : Fin 50000, g n.val := by
  rw [Finset.sum_range, ← Equiv.sum_comp (finProdFinEquiv : Fin 10 × Fin 5000 ≃ Fin (10 * 5000)) (fun n => g n.val),
    Fintype.sum_prod_type]
  refine Finset.sum_congr rfl fun s _ => Finset.sum_congr rfl fun r _ => congrArg g ?_
  show 5000 * s.val + r.val = r.val + 5000 * s.val
  omega

-- what restarts at M at the first of each ten points and adds M to its predecessor elsewhere is, at a tenth point, the ten's sum
theorem sum_of_run {ι : Type} {N : ℕ} (f : (n : ℕ) → n < N → ι → EReal) (M : ℕ → ℕ → ι → EReal)
    (h0 : ∀ n h i, n % 10 = 0 → f n h i = M (n / 10) (n % 10) i)
    (hs : ∀ n h i, ¬(n + 1) % 10 = 0 → f (n + 1) h i = f n (Nat.lt_of_succ_lt h) i + M ((n + 1) / 10) ((n + 1) % 10) i)
    (t : ℕ) (ht : t < N) (h9 : t % 10 = 9) (i : ι) : f t ht i = ∑ s ∈ Finset.range 10, M (t / 10) s i := by
  rw [Pipeline.eq_accAt_of_mod f 10 (fun n _ => M (n / 10) (n % 10)) (fun n _ acc i => acc i + M (n / 10) (n % 10) i)
      (fun n h hm => funext fun i => h0 n h i hm) (fun n h hm => funext fun i => hs n h i hm) (by decide) t ht (by omega),
    Pipeline.accAt_add_apply _ _ (fun _ => 0) (fun n => M (n / 10) (n % 10)) _ 9 (fun _ _ => (zero_add _).symm)
      (fun _ _ _ _ _ _ => rfl) _ (by omega) _ i, zero_add, h9]
  exact Finset.sum_congr rfl fun s hs => by
    have := Finset.mem_range.mp hs
    exact congrArg₂ (M · · i) (by omega) (by omega)

theorem mem_of_emb_eq {sg : RefSig} {κ : Kind} {sp : Space} {s : Shape} {e : EltTy} {v : View sg κ sp s e} {y : s.Idx}
    {i : v.ty.Idx} (h : v.emb y = i) : i ∈ v.set := h ▸ v.emb_mem_set y

variable (V : (c : Dev nD) → (b : Ref sig .tc) → Buf (Elt Ideal) ((c : Thread nD τ).loc b))

abbrev statsAgg (c : Dev nD) : S50000x256.Idx → EReal := V c main_v33
abbrev statsScale (c : Dev nD) : S50000x1.Idx → EReal := V c main_v20
abbrev statsBias (c : Dev nD) : S1x256.Idx → EReal := V c main_v34

def layerOut (c : Dev nD) (n : Fin 50000) (q : Fin 256) : EReal :=
  statsAgg V c (ix2 n q) * statsScale V c (ix2 n 0) + statsBias V c (ix2 0 q)

theorem stats_tileIndex_facts : ∀ t : Fin cfg1.N,
    win1_0.index t (0 : Fin 2) = t.val % 10 ∧ win1_0.index t (1 : Fin 2) = t.val / 10
    ∧ win1_1.index t (0 : Fin 2) = t.val % 10 ∧ win1_1.index t (1 : Fin 2) = 0
    ∧ win1_2.index t (0 : Fin 2) = 0 ∧ win1_2.index t (1 : Fin 2) = t.val / 10
    ∧ win1_3.index t (0 : Fin 2) = 0 ∧ win1_3.index t (1 : Fin 2) = t.val / 10
    ∧ win1_4.index t (0 : Fin 2) = 0 ∧ win1_4.index t (1 : Fin 2) = t.val / 10 :=
  (by decide +kernel : ∀ t : Fin grid1.N, _)

def nodeOut (c : Dev nD) (q n : ℕ) : EReal :=
  if h : n < 50000 ∧ q < 256 then layerOut V c ⟨n, h.1⟩ ⟨q, h.2⟩ else 0

theorem stats_tile_eq (c : Dev nD) (t : Fin cfg1.N) (r : Fin 5000) (l : Fin 128) :
    (k1_pay4 (F := Ideal) (rowsAt V c t) (scaleAt V c t) (biasAt V c t) : S5000x128.Idx → EReal) (ix2 r l)
      = nodeOut V c (128 * (t.val / 10) + l.val) (5000 * (t.val % 10) + r.val) := by
  have hN : cfg1.N = 20 := N_1
  have ht := t.isLt
  have hb : 5000 * (t.val % 10) + r.val < 50000 ∧ 128 * (t.val / 10) + l.val < 256 := by omega
  obtain ⟨e0, e1, e2, e3, e4, e5, -⟩ := stats_tileIndex_facts t
  rw [stats_layerTile_apply, nodeOut, dif_pos hb]
  refine congrArg₂ (· + ·) (congrArg₂ (· * ·) (congrArg (statsAgg V c) (Shape.idx_ext₂ ?_ ?_))
    (congrArg (statsScale V c) (Shape.idx_ext₂ ?_ ?_))) (congrArg (statsBias V c) (Shape.idx_ext₂ ?_ ?_))
  · show win1_0.index t 0 * 5000 + 1 * r.val = 5000 * (t.val % 10) + r.val; omega
  · show win1_0.index t 1 * 128 + 1 * l.val = 128 * (t.val / 10) + l.val; omega
  · show win1_1.index t 0 * 5000 + 1 * r.val = 5000 * (t.val % 10) + r.val; omega
  · show win1_1.index t 1 * 1 + 1 * 0 = 0; omega
  · show win1_2.index t 0 * 1 + 1 * 0 = 0; omega
  · show win1_2.index t 1 * 128 + 1 * l.val = 128 * (t.val / 10) + l.val; omega

-- a column sum of φ of the layer's output restarted from zero with each channel half ends the half at the sum over all nodes
theorem stats_lastTile_sum (c : Dev nD) (φ : EReal → EReal) (f : (n : ℕ) → n < cfg1.N → Vec Ideal S1x128 .f32)
    (pay : Vec Ideal S5000x128 .f32 → Vec Ideal S5000x1 .f32 → Vec Ideal S1x128 .f32 → Vec Ideal S1x128 .f32 → FVec Ideal S1x128 .f32)
    (z : FVec Ideal S1x128 .f32) (hz : ∀ j, (z : S1x128.Idx → EReal) j = 0)
    (hpay : ∀ x s b acc (l : Fin 128), (pay x s b acc : S1x128.Idx → EReal) (ix2 0 l) = (acc : S1x128.Idx → EReal) (ix2 0 l)
      + ∑ r : Fin 5000, φ ((k1_pay4 (F := Ideal) x s b : S5000x128.Idx → EReal) (ix2 r l)))
    (h0 : ∀ t : Fin cfg1.N, t.val % 10 = 0 → f t.val t.isLt = pay (rowsAt V c t) (scaleAt V c t) (biasAt V c t) z)
    (hs : ∀ t : Fin cfg1.N, ¬t.val % 10 = 0 → f t.val t.isLt = pay (rowsAt V c t) (scaleAt V c t) (biasAt V c t)
      (f (t.val - 1) (Nat.lt_of_le_of_lt (Nat.sub_le _ _) t.isLt)))
    (t : Fin cfg1.N) (h9 : t.val % 10 = 9) (l : Fin 128) (q : Fin 256) (hq : q.val = 128 * (t.val / 10) + l.val) :
    (f t.val t.isLt : S1x128.Idx → EReal) (ix2 0 l) = ∑ n : Fin 50000, φ (layerOut V c n q) := by
  rw [sum_of_run (fun n h l => (f n h : S1x128.Idx → EReal) (ix2 0 l))
      (fun h s l => ∑ r : Fin 5000, φ (nodeOut V c (128 * h + l.val) (5000 * s + r.val)))
      (fun n h l hm => by
        rw [h0 ⟨n, h⟩ hm, hpay, hz, zero_add]
        exact Finset.sum_congr rfl fun r _ => congrArg φ (stats_tile_eq V c ⟨n, h⟩ r l))
      (fun n h l hm => by
        rw [hs ⟨n + 1, h⟩ hm, hpay]
        exact congrArg _ (Finset.sum_congr rfl fun r _ => congrArg φ (stats_tile_eq V c ⟨n + 1, h⟩ r l)))
      t.val t.isLt h9 l, ← hq, stats_sum_tiles fun m => φ (nodeOut V c q.val m)]
  exact Finset.sum_congr rfl fun n _ => by rw [nodeOut, dif_pos ⟨n.isLt, q.isLt⟩]

abbrev meanRow (c : Dev nD) : S1x256.Idx → EReal := fun j => meanOf (layerOut V c) (j 1)
abbrev varRow (c : Dev nD) : S1x256.Idx → EReal := fun j => varMoments (layerOut V c) (j 1)

theorem stats_flushed_eq (c : Dev nD) (t : Fin cfg1.N) (h9 : t.val % 10 = 9) :
    (dat1 (F := Ideal) V c).flushed 3 t = ((cfg1.win 3).blk t).view.read (Elt Ideal) (meanRow V c)
    ∧ (dat1 (F := Ideal) V c).flushed 4 t = ((cfg1.win 4).blk t).view.read (Elt Ideal) (varRow V c) := by
  obtain ⟨-, -, -, -, -, -, -, e3, -, e4⟩ := stats_tileIndex_facts t
  have sum := stats_lastTile_sum V c id (sumAfter V c) k1_pay5 k1_pay2 stats_zero_apply stats_sumStep_apply
    (sumAfter_first V c) (sumAfter_next V c) t h9
  have sq := stats_lastTile_sum V c (fun y => y * y) (sqAfter V c) k1_pay6 k1_pay3 stats_zero_apply stats_sqStep_apply
    (sqAfter_first V c) (sqAfter_next V c) t h9
  constructor <;> refine funext fun (y : S1x128.Idx) => ?_ <;>
    obtain ⟨u, l, rfl⟩ : ∃ (u : Fin 1) (l : Fin 128), y = ix2 u l := ⟨y 0, y 1, eq_ix2 y⟩ <;>
    obtain rfl : u = 0 := Subsingleton.elim _ _
  · have hq : ((((cfg1.win 3).blk t).view.emb (ix2 0 l)) 1).val = 128 * (t.val / 10) + l.val := by
      show win1_3.index t 1 * 128 + 1 * l.val = _; omega
    exact congrArg (Ideal.div · nodesWord) (sum l _ hq)
  · have hq : ((((cfg1.win 4).blk t).view.emb (ix2 0 l)) 1).val = 128 * (t.val / 10) + l.val := by
      show win1_4.index t 1 * 128 + 1 * l.val = _; omega
    refine (congrArg (max _) Ideal.ofBits_zero_f32).trans ?_
    exact congrArg₂ (fun a b => max (Ideal.div b nodesWord - Ideal.div a nodesWord * Ideal.div a nodesWord) 0)
      (sum l _ hq) (sq l _ hq)

theorem stats_cover (i : S1x256.Idx) :
    (∃ t : Fin cfg1.N, (cfg1.win 3).flush t = true ∧ i ∈ ((cfg1.win 3).blk t).view.set)
    ∧ ∃ t : Fin cfg1.N, (cfg1.win 4).flush t = true ∧ i ∈ ((cfg1.win 4).blk t).view.set := by
  have hi0 : (i 0).val < 1 := idx2_lt0 i
  have hi1 : (i 1).val < 256 := idx2_lt1 i
  have hN : cfg1.N = 20 := N_1
  have ht : 10 * ((i 1).val / 128) + 9 < cfg1.N := by omega
  obtain ⟨-, -, -, -, -, -, e0, e1, f0, f1⟩ := stats_tileIndex_facts ⟨_, ht⟩
  have h9 : (⟨_, ht⟩ : Fin cfg1.N).val % 10 = 9 := by show (10 * ((i 1).val / 128) + 9) % 10 = 9; omega
  have hd : (⟨_, ht⟩ : Fin cfg1.N).val / 10 = (i 1).val / 128 := by show (10 * ((i 1).val / 128) + 9) / 10 = _; omega
  refine ⟨⟨⟨_, ht⟩, (flush1_3 _).mpr h9, ?_⟩, ⟨_, ht⟩, (flush1_4 _).mpr h9, ?_⟩
  · exact mem_of_emb_eq (y := ix2 0 ⟨(i 1).val % 128, Nat.mod_lt _ (by decide)⟩)
      (Shape.idx_ext₂ (by show win1_3.index _ 0 * 1 + 1 * 0 = (i 0).val; omega)
        (by show win1_3.index _ 1 * 128 + 1 * ((i 1).val % 128) = (i 1).val; omega))
  · exact mem_of_emb_eq (y := ix2 0 ⟨(i 1).val % 128, Nat.mod_lt _ (by decide)⟩)
      (Shape.idx_ext₂ (by show win1_4.index _ 0 * 1 + 1 * 0 = (i 0).val; omega)
        (by show win1_4.index _ 1 * 128 + 1 * ((i 1).val % 128) = (i 1).val; omega))

theorem mean_value (c : Dev nD) (q : Fin 256) :
    ((dat1 (F := Ideal) V c).arrAt 3 cfg1.N : S1x256.Idx → EReal) (ix2 0 q) = meanOf (layerOut V c) q :=
  congrFun ((dat1 (F := Ideal) V c).arrAt_eq_of_cover 3 (meanRow V c)
    (fun t hf => (stats_flushed_eq V c t ((flush1_3 t).mp hf)).1) fun i => (stats_cover i).1) (ix2 0 q)

theorem var_value (c : Dev nD) (q : Fin 256) :
    ((dat1 (F := Ideal) V c).arrAt 4 cfg1.N : S1x256.Idx → EReal) (ix2 0 q) = varMoments (layerOut V c) q :=
  congrFun ((dat1 (F := Ideal) V c).arrAt_eq_of_cover 4 (varRow V c)
    (fun t hf => (stats_flushed_eq V c t ((flush1_4 t).mp hf)).2) fun i => (stats_cover i).2) (ix2 0 q)

end Cert.KernelIdeal.Hand

end
-- ==== Proof.KI.PoolValue.lean ====
import proofs.«403238_j23510650978598_3_alg».proof.Proof.KI.Pool
import proofs.«403238_j23510650978598_3_alg».proof.Proof.KI.StatsValue

noncomputable section

namespace Cert.KernelIdeal.Hand

open Cert.KernelIdeal Cert.KernelIdeal.Gen Cert.GcnPool
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

abbrev poolFeatArr (c : Dev nD) : S50000x256.Idx → EReal := V c main_v33
abbrev poolScaleArr (c : Dev nD) : S50000x1.Idx → EReal := V c main_v20
abbrev poolBiasArr (c : Dev nD) : S1x256.Idx → EReal := V c main_v34

def poolLayerOut (c : Dev nD) (n : Fin 50000) (q : Fin 256) : EReal :=
  poolFeatArr V c (ix2 n q) * poolScaleArr V c (ix2 n 0) + poolBiasArr V c (ix2 0 q)

namespace PoolValue

theorem poolStep_apply (a : FVec Ideal S5000x128 .bf16) (tb : FVec Ideal S5000x64 .bf16) (prev : Vec Ideal S64x128 .f32)
    (g : Fin 64) (l : Fin 128) :
    (k2_pay1 (F := Ideal) a tb prev : S64x128.Idx → EReal) (ix2 g l)
      = (prev : S64x128.Idx → EReal) (ix2 g l)
        + ∑ r : Fin 5000, (tb : S5000x64.Idx → EReal) (ix2 r g) * (a : S5000x128.Idx → EReal) (ix2 r l) := by
  unfold k2_pay1
  rw [shapeCast_self, addf_apply]
  refine congrArg _ ((Ideal.matmul_constant_zero_apply _ none tb a (ix2 g l)).trans ?_)
  rw [← Equiv.sum_comp (contrEquiv1 dot_S5000x64_S5000x128_S64x128_0_0_1_1_n_n 5000 rfl rfl).symm]
  refine Finset.sum_congr rfl fun r _ =>
    congrArg₂ (· * ·) (congrArg tb (Shape.idx_ext₂ ?_ rfl)) (congrArg a (Shape.idx_ext₂ ?_ rfl))
  · exact (dot_S5000x64_S5000x128_S64x128_0_0_1_1_n_n.lhsIdx_val_of_single (cl := 0) rfl _ _).trans (contrEquiv1_symm_val dot_S5000x64_S5000x128_S64x128_0_0_1_1_n_n 5000 rfl rfl r)
  · exact (dot_S5000x64_S5000x128_S64x128_0_0_1_1_n_n.rhsIdx_val_of_single (cr := 0) rfl _ _).trans (contrEquiv1_symm_val dot_S5000x64_S5000x128_S64x128_0_0_1_1_n_n 5000 rfl rfl r)

theorem tileAct_apply (x0 : Vec Ideal S5000x128 .f32) (x1 : Vec Ideal S5000x1 .f32) (xb xv xg xm xs : Vec Ideal S1x128 .f32)
    (r : Fin 5000) (l : Fin 128) :
    (k2_pay3 (F := Ideal) x0 x1 xb xv xg xm xs : S5000x128.Idx → EReal) (ix2 r l)
      = max ((xg : S1x128.Idx → EReal) (ix2 0 l)
            * (((x0 : S5000x128.Idx → EReal) (ix2 r l) * (x1 : S5000x1.Idx → EReal) (ix2 r 0) + (xb : S1x128.Idx → EReal) (ix2 0 l))
                - (xm : S1x128.Idx → EReal) (ix2 0 l))
            * Ideal.rsqrt ((xv : S1x128.Idx → EReal) (ix2 0 l) + epsWord)
          + (xs : S1x128.Idx → EReal) (ix2 0 l)) 0 := by
  unfold k2_pay3
  simp only [shapeCast_self]
  rw [truncf_apply, maximumf_apply, addf_apply, mulf_apply, mulf_apply, subf_apply, addf_apply, mulf_apply]
  simp only [broadcastTo_1b_ab_apply]
  rw [broadcastTo_apply x1 broadcasts_S5000x1_S5000x128 (ix2 r l) (ix2 r 0) (fun a => by
      match a with
      | ⟨0, _⟩ => rfl
      | ⟨1, _⟩ => rfl),
    broadcast_apply, show (FloatOps.ofBits (F := Ideal) .f32 0x00000000#32 : EReal) = 0 from Ideal.ofBits_zero_f32]
  rfl

theorem zeroAcc_apply (j : S64x128.Idx) : (k2_pay2 (F := Ideal) : S64x128.Idx → EReal) j = 0 := by
  unfold k2_pay2
  rw [shapeCast_self]
  exact Ideal.ofBits_zero_f32

theorem pool_index : ∀ t : Fin cfg2.N,
    (win2_0.index t (0 : Fin 2) = t.val % 10 ∧ win2_0.index t (1 : Fin 2) = t.val / 10)
    ∧ (win2_1.index t (0 : Fin 2) = t.val % 10 ∧ win2_1.index t (1 : Fin 2) = 0)
    ∧ (win2_2.index t (0 : Fin 2) = 0 ∧ win2_2.index t (1 : Fin 2) = t.val / 10)
    ∧ (win2_3.index t (0 : Fin 2) = 0 ∧ win2_3.index t (1 : Fin 2) = t.val / 10)
    ∧ (win2_4.index t (0 : Fin 2) = 0 ∧ win2_4.index t (1 : Fin 2) = t.val / 10)
    ∧ (win2_5.index t (0 : Fin 2) = 0 ∧ win2_5.index t (1 : Fin 2) = t.val / 10)
    ∧ (win2_6.index t (0 : Fin 2) = 0 ∧ win2_6.index t (1 : Fin 2) = t.val / 10)
    ∧ (win2_7.index t (0 : Fin 2) = t.val % 10 ∧ win2_7.index t (1 : Fin 2) = 0)
    ∧ (win2_8.index t (0 : Fin 2) = 0 ∧ win2_8.index t (1 : Fin 2) = t.val / 10) :=
  (by decide +kernel : ∀ t : Fin grid2.N, _)

abbrev tblArr (c : Dev nD) : Fin 50000 → Fin 64 → EReal := fun n g => (V c main_v44 : S50000x64.Idx → EReal) (ix2 n g)

abbrev actArr (c : Dev nD) : Fin 50000 → Fin 256 → EReal :=
  actOf (poolLayerOut V c) (fun q => (V c main_v37_0 : S1x256.Idx → EReal) (ix2 0 q))
    (fun q => (V c main_v37_1 : S1x256.Idx → EReal) (ix2 0 q)) (fun q => (V c main_v35 : S1x256.Idx → EReal) (ix2 0 q))
    (fun q => (V c main_v36 : S1x256.Idx → EReal) (ix2 0 q))

-- node n's term of graph g's sum at channel q, over naturals (zero outside the arrays)
def nodeTerm (c : Dev nD) (g : Fin 64) (q n : ℕ) : EReal :=
  if h : n < 50000 ∧ q < 256 then tblArr V c ⟨n, h.1⟩ g * actArr V c ⟨n, h.1⟩ ⟨q, h.2⟩ else 0

theorem tileStep_entry (c : Dev nD) (t : Fin cfg2.N) (prev : Vec Ideal S64x128 .f32) (g : Fin 64) (l : Fin 128) :
    (tileStep (featTile V c t) (dinvTile V c t) (biasTile V c t) (meanTile V c t) (varTile V c t) (gammaTile V c t)
        (betaTile V c t) (memberTile V c t) prev : S64x128.Idx → EReal) (ix2 g l)
      = (prev : S64x128.Idx → EReal) (ix2 g l)
        + ∑ r : Fin 5000, nodeTerm V c g (128 * (t.val / 10) + l.val) (5000 * (t.val % 10) + r.val) := by
  have hN : cfg2.N = 20 := N_2
  have ht := t.isLt
  obtain ⟨⟨a0, a1⟩, ⟨b0, b1⟩, ⟨c0, c1⟩, ⟨d0, d1⟩, ⟨e0, e1⟩, ⟨f0, f1⟩, ⟨g0, g1⟩, ⟨h0, h1⟩, -⟩ := pool_index t
  unfold tileStep
  rw [poolStep_apply]
  refine congrArg _ (Finset.sum_congr rfl fun r _ => ?_)
  have hb : 5000 * (t.val % 10) + r.val < 50000 ∧ 128 * (t.val / 10) + l.val < 256 := by omega
  rw [tileAct_apply, nodeTerm, dif_pos hb]
  unfold k2_pay4
  rw [shapeCast_self]
  refine congrArg₂ (· * ·) (congrArg (V c main_v44) (Shape.idx_ext₂ ?_ ?_)) (congrArg (max · 0) (congrArg₂ (· + ·)
    (congrArg₂ (· * ·) (congrArg₂ (· * ·) (congrArg (V c main_v35) (Shape.idx_ext₂ ?_ ?_))
      (congrArg₂ (· - ·) (congrArg₂ (· + ·) (congrArg₂ (· * ·) (congrArg (V c main_v33) (Shape.idx_ext₂ ?_ ?_))
        (congrArg (V c main_v20) (Shape.idx_ext₂ ?_ ?_))) (congrArg (V c main_v34) (Shape.idx_ext₂ ?_ ?_)))
        (congrArg (V c main_v37_0) (Shape.idx_ext₂ ?_ ?_))))
      (congrArg (fun y => Ideal.rsqrt (y + epsWord)) (congrArg (V c main_v37_1) (Shape.idx_ext₂ ?_ ?_))))
    (congrArg (V c main_v36) (Shape.idx_ext₂ ?_ ?_))))
  · show win2_7.index t 0 * 5000 + 1 * r.val = 5000 * (t.val % 10) + r.val; omega
  · show win2_7.index t 1 * 64 + 1 * g.val = g.val; omega
  · show win2_5.index t 0 * 1 + 1 * 0 = 0; omega
  · show win2_5.index t 1 * 128 + 1 * l.val = 128 * (t.val / 10) + l.val; omega
  · show win2_0.index t 0 * 5000 + 1 * r.val = 5000 * (t.val % 10) + r.val; omega
  · show win2_0.index t 1 * 128 + 1 * l.val = 128 * (t.val / 10) + l.val; omega
  · show win2_1.index t 0 * 5000 + 1 * r.val = 5000 * (t.val % 10) + r.val; omega
  · show win2_1.index t 1 * 1 + 1 * 0 = 0; omega
  · show win2_2.index t 0 * 1 + 1 * 0 = 0; omega
  · show win2_2.index t 1 * 128 + 1 * l.val = 128 * (t.val / 10) + l.val; omega
  · show win2_3.index t 0 * 1 + 1 * 0 = 0; omega
  · show win2_3.index t 1 * 128 + 1 * l.val = 128 * (t.val / 10) + l.val; omega
  · show win2_4.index t 0 * 1 + 1 * 0 = 0; omega
  · show win2_4.index t 1 * 128 + 1 * l.val = 128 * (t.val / 10) + l.val; omega
  · show win2_6.index t 0 * 1 + 1 * 0 = 0; omega
  · show win2_6.index t 1 * 128 + 1 * l.val = 128 * (t.val / 10) + l.val; omega

abbrev pooledSums (c : Dev nD) : S64x256.Idx → EReal := fun j => poolTable (tblArr V c) (actArr V c) (j 0) (j 1)

theorem pool_flushed_eq (c : Dev nD) (t : Fin cfg2.N) (hf : (cfg2.win 8).flush t = true) :
    (dat2 (F := Ideal) V c).flushed 8 t = ((cfg2.win 8).blk t).view.read (Elt Ideal) (pooledSums V c) := by
  have h9 : t.val % 10 = 9 := (flush2_8 t).mp hf
  have hN : cfg2.N = 20 := N_2
  have ht := t.isLt
  obtain ⟨-, -, -, -, -, -, -, -, k0, k1⟩ := pool_index t
  refine funext fun (y : S64x128.Idx) => ?_
  obtain ⟨g, l, rfl⟩ : ∃ (g : Fin 64) (l : Fin 128), y = ix2 g l := ⟨y 0, y 1, eq_ix2 y⟩
  refine (sum_of_run (fun n h l => (poolAcc V c n h : S64x128.Idx → EReal) (ix2 g l))
      (fun h s l => ∑ r : Fin 5000, nodeTerm V c g (128 * h + l.val) (5000 * s + r.val))
      (fun n h l hm => by rw [poolAcc_first V c ⟨n, h⟩ hm, tileStep_entry, zeroAcc_apply, zero_add])
      (fun n h l hm => by rw [poolAcc_later V c ⟨n + 1, h⟩ hm, tileStep_entry]; rfl) t.val ht h9 l).trans ?_
  have hR : ∀ G : S64x256.Idx → EReal, ((cfg2.win 8).blk t).view.read (Elt Ideal) G (ix2 g l)
      = G (ix2 g ⟨128 * (t.val / 10) + l.val, by omega⟩) := fun G =>
    congrArg G (Shape.idx_ext₂ (by show win2_8.index t 0 * 64 + 1 * g.val = g.val; omega)
      (by show win2_8.index t 1 * 128 + 1 * l.val = 128 * (t.val / 10) + l.val; omega))
  rw [stats_sum_tiles (nodeTerm V c g (128 * (t.val / 10) + l.val)), hR]
  exact Finset.sum_congr rfl fun n _ => by rw [nodeTerm, dif_pos ⟨n.isLt, by omega⟩]

theorem pool_cover (i : S64x256.Idx) :
    ∃ t : Fin cfg2.N, (cfg2.win 8).flush t = true ∧ i ∈ ((cfg2.win 8).blk t).view.set := by
  have hi0 : (i 0).val < 64 := idx2_lt0 i
  have hi1 : (i 1).val < 256 := idx2_lt1 i
  have hN : cfg2.N = 20 := N_2
  have ht : 10 * ((i 1).val / 128) + 9 < cfg2.N := by omega
  obtain ⟨-, -, -, -, -, -, -, -, k0, k1⟩ := pool_index ⟨_, ht⟩
  have hd : (⟨_, ht⟩ : Fin cfg2.N).val / 10 = (i 1).val / 128 := by show (10 * ((i 1).val / 128) + 9) / 10 = _; omega
  refine ⟨⟨_, ht⟩, (flush2_8 _).mpr (by show (10 * ((i 1).val / 128) + 9) % 10 = 9; omega), ?_⟩
  exact mem_of_emb_eq (y := ix2 (i 0) ⟨(i 1).val % 128, Nat.mod_lt _ (by decide)⟩)
    (Shape.idx_ext₂ (by show win2_8.index _ 0 * 64 + 1 * (i 0).val = (i 0).val; omega)
      (by show win2_8.index _ 1 * 128 + 1 * ((i 1).val % 128) = (i 1).val; omega))

end PoolValue

open PoolValue in
theorem pool_value (c : Dev nD) (g : Fin 64) (q : Fin 256) :
    ((dat2 (F := Ideal) V c).arrAt 8 cfg2.N : S64x256.Idx → EReal) (ix2 g q)
      = poolTable (fun n g => (V c main_v44 : S50000x64.Idx → EReal) (ix2 n g))
          (actOf (poolLayerOut V c) (fun q => (V c main_v37_0 : S1x256.Idx → EReal) (ix2 0 q))
            (fun q => (V c main_v37_1 : S1x256.Idx → EReal) (ix2 0 q)) (fun q => (V c main_v35 : S1x256.Idx → EReal) (ix2 0 q))
            (fun q => (V c main_v36 : S1x256.Idx → EReal) (ix2 0 q))) g q :=
  congrFun ((dat2 (F := Ideal) V c).arrAt_eq_of_cover 8 (pooledSums V c) (pool_flushed_eq V c) pool_cover) (ix2 g q)

end Cert.KernelIdeal.Hand

end
-- ==== Proof.KI.ClassifyValue.lean ====
import proofs.«403238_j23510650978598_3_alg».proof.Proof.KI.Classify
import proofs.«403238_j23510650978598_3_alg».proof.Proof.Stages
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx
open scoped BigOperators

def scoreVec (p : Vec Ideal S64x256 .f32) (wf : Vec Ideal S60x256 .f32) (bf : Vec Ideal S1x60 .f32) : FVec Ideal S64x60 .f32 :=
  addf (matmul dot_S64x256_S60x256_S64x60_1_1_0_0_n_n none
      (truncf .bf16 (shapeCast S64x256 p shapeCasts_S64x256_S64x256) bitsLt_bf16_f32) (truncf .bf16 wf bitsLt_bf16_f32)
      (constant S64x60 .f32 0x00000000#32))
    (broadcastTo S64x60 (shapeCast S1x60 bf shapeCasts_S1x60_S1x60) broadcasts_S1x60_S64x60)

def spread (v : FVec Ideal S64 .f32) : FVec Ideal S64x60 .f32 :=
  broadcastTo S64x60 (shapeCast S64x1 v shapeCasts_S64_S64x1) broadcasts_S64x1_S64x60

def rowTop (s : FVec Ideal S64x60 .f32) : FVec Ideal S64 .f32 :=
  multiReduction .maximumf [1] S64 s 0xFF800000#32 reduces_S64x60_S64 (.inl rfl) rfl

def rowTotal (s : FVec Ideal S64x60 .f32) : FVec Ideal S64 .f32 :=
  multiReduction .add [1] S64 s 0x00000000#32 reduces_S64x60_S64 (.inl rfl) rfl

-- The payload is the scores less their row maxima, less the logarithm of the row sums of the exponentials of those.
theorem pay_stages (p : Vec Ideal S64x256 .f32) (wf : Vec Ideal S60x256 .f32) (bf : Vec Ideal S1x60 .f32) :
    k3_pay1 p wf bf = subf (subf (scoreVec p wf bf) (spread (rowTop (scoreVec p wf bf))))
      (spread (log (rowTotal (exp (subf (scoreVec p wf bf) (spread (rowTop (scoreVec p wf bf)))))))) := rfl

-- Both operands are contracted along their feature coordinate.
theorem scoreVec_apply (p : Vec Ideal S64x256 .f32) (wf : Vec Ideal S60x256 .f32) (bf : Vec Ideal S1x60 .f32)
    (g : Fin 64) (k : Fin 60) :
    scoreVec p wf bf (ix2 g k)
      = Cert.GcnPool.logitsOf (fun g q => p (ix2 g q)) (fun k q => wf (ix2 k q)) (fun k => bf (ix2 0 k)) g k := by
  unfold scoreVec Cert.GcnPool.logitsOf matmul
  rw [addf_apply, Ideal.matmul_constant_zero_apply, broadcastTo_1b_ab_apply, shapeCast_self, shapeCast_self,
    ← Equiv.sum_comp (contrEquiv1 dot_S64x256_S60x256_S64x60_1_1_0_0_n_n 256 rfl rfl).symm]
  refine congrArg (· + _) (Finset.sum_congr rfl fun q _ => ?_)
  have hq := contrEquiv1_symm_val dot_S64x256_S60x256_S64x60_1_1_0_0_n_n 256 rfl rfl q
  exact congrArg₂ (· * ·)
    (congrArg p (Shape.idx_ext₂ rfl ((DotDims.lhsIdx_val_of_single _ (cl := 1) rfl _ _).trans hq)))
    (congrArg wf (Shape.idx_ext₂ rfl ((DotDims.rhsIdx_val_of_single _ (cr := 1) rfl _ _).trans hq)))

theorem lift_row (g : Fin 64) (k : Fin 60) : reduces_S64x60_S64.lift (ix1 g) k = ix2 g k :=
  Shape.idx_ext₂ rfl rfl

theorem spread_apply (v : FVec Ideal S64 .f32) (g : Fin 64) (k : Fin 60) : spread v (ix2 g k) = v (ix1 g) := by
  unfold spread
  rw [broadcastTo_apply _ broadcasts_S64x1_S64x60 (ix2 g k) (ix2 g (0 : Fin 1)) fun a => by fin_cases a <;> rfl]
  exact shapeCast_apply _ shapeCasts_S64_S64x1 (ix2 g (0 : Fin 1)) (ix1 g) (by
    rw [Shape.rowMajor_val_two, Shape.rowMajor_val_one]
    show g.val = g.val * 1 + 0
    omega)

-- The maximum folds from the least extended real, so it is the supremum of the row.
theorem rowTop_apply (s : FVec Ideal S64x60 .f32) (g : Fin 64) :
    rowTop s (ix1 g) = Finset.univ.sup fun k : Fin 60 => s (ix2 g k) := by
  refine (Ideal.multiReduction_maximumf_single s 0xFF800000#32 reduces_S64x60_S64 (.inl rfl) rfl (ix1 g)).trans ?_
  show (Finset.univ : Finset (Fin 60)).fold max (Ideal.ofBits .f32 0xFF800000#32)
      (fun k => s (reduces_S64x60_S64.lift (ix1 g) k)) = _
  rw [show Ideal.ofBits .f32 0xFF800000#32 = ⊥ by simp [Ideal.ofBits, Ideal.ieee]]
  exact congrArg (Finset.univ.sup (α := EReal)) (funext fun k => congrArg s (lift_row g k))

theorem rowTotal_apply (s : FVec Ideal S64x60 .f32) (g : Fin 64) : rowTotal s (ix1 g) = ∑ k : Fin 60, s (ix2 g k) := by
  refine (Ideal.multiReduction_add_single s 0x00000000#32 reduces_S64x60_S64 (.inl rfl) rfl (ix1 g)).trans ?_
  exact Finset.sum_congr rfl fun k _ => congrArg s (lift_row g k)

theorem pay_apply (p : Vec Ideal S64x256 .f32) (wf : Vec Ideal S60x256 .f32) (bf : Vec Ideal S1x60 .f32)
    (g : Fin 64) (k : Fin 60) :
    k3_pay1 p wf bf (ix2 g k)
      = Cert.GcnPool.logSoftmax
          (Cert.GcnPool.logitsOf (fun g q => p (ix2 g q)) (fun k q => wf (ix2 k q)) (fun k => bf (ix2 0 k))) g k := by
  rw [pay_stages, subf_apply, subf_apply, spread_apply, spread_apply]
  show _ - Ideal.log (rowTotal (fun j => Ideal.exp (subf (scoreVec p wf bf) (spread (rowTop (scoreVec p wf bf))) j)) (ix1 g)) = _
  rw [rowTotal_apply]
  unfold Cert.GcnPool.logSoftmax
  simp only [subf_apply, spread_apply, rowTop_apply, scoreVec_apply]

variable (V : (c : Dev nD) → (b : Ref sig .tc) → Buf (Elt Ideal) ((c : Thread nD τ).loc b))

abbrev outArr (c : Dev nD) : S64x60.Idx → EReal :=
  k3_pay1 (V c main_v54) (V c main_arg7) (V c main_v55)

theorem out3_zero : (fun a => win3_3.index t3_0 a * main_v56.ty.shape.size a) = fun _ => 0 := by decide +kernel

-- The grid has one point, and each tile there is its whole array.
theorem flushed3_eq (c : Dev nD) (t : Fin cfg3.N) :
    (dat3 V c).flushed 3 t = ((cfg3.win 3).blk t).view.read (Elt Ideal) (outArr V c) := by
  have hz : (![0, 0] : Fin 2 → Nat) = fun _ => 0 := by decide
  obtain rfl := fin_N3 t
  show (cfg3.win 3).cut (grid3.coords t3_0) ((dat3 V c).after 3 t3_0) = _
  rw [after3_3]
  unfold logp3
  rw [View.canon_unit_zero hz]
  simp only [View.ld_unit_zero (S := S64x256) hz, View.ld_unit_zero (S := S60x256) hz, View.ld_unit_zero (S := S1x60) hz]
  rw [show (blk3 V c 0 t3_0 : S64x256.Idx → EReal) = V c main_v54 from
      Memref.read_access_unit_zero (Elt Ideal) main_v54 (by decide +kernel) _ _,
    show (blk3 V c 1 t3_0 : S60x256.Idx → EReal) = V c main_arg7 from
      Memref.read_access_unit_zero (Elt Ideal) main_arg7 (by decide +kernel) _ _,
    show (blk3 V c 2 t3_0 : S1x60.Idx → EReal) = V c main_v55 from
      Memref.read_access_unit_zero (Elt Ideal) main_v55 (by decide +kernel) _ _]
  exact (Memref.read_access_unit_zero (Elt Ideal) main_v56 out3_zero _ (outArr V c)).symm

theorem final3 (c : Dev nD) : (dat3 V c).arrAt 3 cfg3.N = outArr V c :=
  (dat3 V c).arrAt_eq_of_cover 3 (outArr V c) (fun t _ => flushed3_eq V c t) fun i =>
    ⟨t3_0, flush3_3 t3_0, by
      show i ∈ ((View.whole main_v56).slice (win3_3.rect t3_0)).set
      rw [View.set_slice_whole]
      exact View.mem_set_unit_zero out3_zero _ i⟩

theorem classify_value (c : Dev nD) (g : Fin 64) (k : Fin 60) :
    ((dat3 (F := Ideal) V c).arrAt 3 cfg3.N : S64x60.Idx → EReal) (ix2 g k)
      = Cert.GcnPool.logSoftmax
          (Cert.GcnPool.logitsOf (fun g q => (V c main_v54 : S64x256.Idx → EReal) (ix2 g q))
            (fun k q => (V c main_arg7 : S60x256.Idx → EReal) (ix2 k q))
            (fun k => (V c main_v55 : S1x60.Idx → EReal) (ix2 0 k))) g k := by
  rw [final3]
  exact pay_apply _ _ _ g k

end Cert.KernelIdeal.Hand

end
-- ==== Proof.LibIndex.lean ====
import Idealize.ShloMosaic.PureOps.ShapeOps
import Idealize.ShloMosaic.Lib.ValueIdx

namespace Cert.Gcn

open Idealize.ShloMosaic Idealize.ShloMosaic.ValueIdx

def crow (N : Nat) (hN : 0 < N) (v : BitVec 32) : Fin N := ⟨min v.toInt.toNat (N - 1), by omega⟩

theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  have hsi : (rowGatherDims N E D wf).siIdx j ⟨0, Nat.zero_lt_one⟩ = ix2 (j 0) 0 :=
    (eq_ix2 _).trans (congrArg₂ ix2 (Fin.ext rfl) (Fin.ext rfl))
  unfold Host.gather
  refine congrArg x (funext fun a => Fin.ext ?_)
  match a with
  | ⟨0, _⟩ => exact congrArg (fun k => min (idx k).toInt.toNat (N - 1)) hsi
  | ⟨1, _⟩ => exact Nat.zero_add _

abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  have hsi : (vecGatherDims N E wf).siIdx e ⟨0, Nat.zero_lt_one⟩ = ix2 (e 0) 0 :=
    (eq_ix2 _).trans (congrArg₂ ix2 (Fin.ext rfl) (Fin.ext rfl))
  unfold Host.gather
  refine congrArg x (funext fun a => Fin.ext ?_)
  obtain rfl : a = 0 := Subsingleton.elim _ _
  exact congrArg (fun k => min (idx k).toInt.toNat (N - 1)) hsi

abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

end Cert.Gcn
-- ==== Proof.Decode.lean ====
import proofs.«403238_j23510650978598_3_alg».proof.Proof.LibIndex
import proofs.«403238_j23510650978598_3_alg».proof.Proof.Stages

noncomputable section

namespace Cert.GcnPool

open Idealize.ShloMosaic Idealize.ShloMosaic.ValueIdx
open scoped BigOperators

abbrev oneWord : EReal := Ideal.ofBits .f32 0x3F800000#32
abbrev zeroWord : EReal := Ideal.ofBits .f32 0x00000000#32

variable (ei : (⟨2, ![2, 800000]⟩ : Shape).Idx → BitVec 32)

-- Row r of the edge list with one self loop per node appended: the input's edge for e < 800000, then node e - 800000.
def edgeWord (r : Fin 2) (e : Fin 850000) : BitVec 32 :=
  if h : e.val < 800000 then ei (ix2 r ⟨e.val, h⟩) else BitVec.ofNat 32 (e.val - 800000)

abbrev srcWord (e : Fin 850000) : BitVec 32 := edgeWord ei 0 e
abbrev dstWord (e : Fin 850000) : BitVec 32 := edgeWord ei 1 e

-- A word as a row number: a negative word counts from the end, then the result is clamped into the node range.
def wrapWord (w : BitVec 32) : BitVec 32 := if w.toInt < 0 then w + 50000#32 else w

def rowOf (w : BitVec 32) : Fin 50000 := Cert.Gcn.crow 50000 (by decide) (wrapWord w)

abbrev srcRow (e : Fin 850000) : Fin 50000 := rowOf (srcWord ei e)
abbrev dstRow (e : Fin 850000) : Fin 50000 := rowOf (dstWord ei e)

-- A node's degree counts the edges whose WRAPPED destination word is the node.
def degOf (n : Fin 50000) : EReal :=
  zeroWord + ∑ _e ∈ Finset.univ.filter (fun e : Fin 850000 => (wrapWord (dstWord ei e)).toInt = (n.val : Int)), oneWord

def dinvOf (n : Fin 50000) : EReal :=
  if zeroWord < degOf ei n then Ideal.rsqrt (degOf ei n) else zeroWord

def memberTable (batch : Fin 50000 → BitVec 32) (n : Fin 50000) (g : Fin 64) : EReal :=
  if batch n = BitVec.ofNat 32 g.val then (1 : EReal) else 0

end Cert.GcnPool

end
-- ==== Proof.LibScatter.lean ====
import proofs.«403238_j23510650978598_3_alg».proof.Proof.LibIndex
import Idealize.ShloMosaic.PureOps.Ideal
import Idealize.ShloMosaic.PureOps.Ideal.Laws

noncomputable section

namespace Cert.Gcn

open Idealize.ShloMosaic Idealize.ShloMosaic.ValueIdx

abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

-- The range test needs no separate proof: a coordinate of `i` is already within the operand.
theorem resultIdx?_eq_some_iff {s si u : Shape} (d : ScatterDims s si u) {w : Nat} (j : u.Idx) (idx : IVec si w)
    (i : s.Idx) :
    d.resultIdx? j idx = some i ↔ ∀ a, d.start j idx a + (d.window j a : Nat) = ((i a).val : Int) := by
  unfold ScatterDims.resultIdx?
  constructor
  · intro h a
    split at h
    · rename_i hr
      have ha : (d.start j idx a + (d.window j a : Nat)).toNat = (i a).val :=
        congrArg (fun f => (f a).val) (Option.some.inj h)
      have := (hr a).1
      omega
    · cases h
  · intro h
    have hall : ∀ a, 0 ≤ d.start j idx a + (d.window j a : Nat) ∧
        d.start j idx a + (d.window j a : Nat) < (s.size a : Nat) := fun a => by
      rw [h a]
      have := (i a).isLt
      omega
    rw [dif_pos hall]
    exact congrArg some (funext fun a => Fin.ext (by
      show (d.start j idx a + (d.window j a : Nat)).toNat = _
      rw [h a, Int.toNat_natCast]))

theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs : (vecScatterDims N E wf).start j idx 0 = (idx (ix2 (j 0) 0)).toInt :=
    congrArg (fun k => (idx k).toInt) ((eq_ix2 _).trans (congrArg₂ ix2 (Fin.ext rfl) (Fin.ext rfl)))
  have hw : (vecScatterDims N E wf).window j 0 = 0 := rfl
  rw [resultIdx?_eq_some_iff, Fin.forall_fin_one, hs, hw]
  omega

theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  have hs : (rowScatterDims N E D wf).start j idx 0 = (idx (ix2 (j 0) 0)).toInt :=
    congrArg (fun k => (idx k).toInt) ((eq_ix2 _).trans (congrArg₂ ix2 (Fin.ext rfl) (Fin.ext rfl)))
  have h0 : (rowScatterDims N E D wf).window j 0 = 0 := rfl
  have h1 : (rowScatterDims N E D wf).start j idx 1 = 0 := rfl
  have hw : (rowScatterDims N E D wf).window j 1 = (j 1).val := rfl
  rw [resultIdx?_eq_some_iff, Fin.forall_fin_two, hs, h0, h1, hw]
  exact and_congr (by omega) ((by omega : _ ↔ (j 1).val = (i 1).val).trans Fin.ext_iff.symm)

-- Used to re-index the updates landing on one element by the update's leading coordinate.
theorem sum_filter_comp {ι κ M : Type*} [Fintype ι] [Fintype κ] [AddCommMonoid M] {p : ι → Prop} {q : κ → Prop}
    [DecidablePred p] [DecidablePred q] (f : ι → κ) (g : κ → ι) (u : ι → M)
    (hf : ∀ a, p a → q (f a) ∧ g (f a) = a) (hg : ∀ b, q b → p (g b)) (hfg : ∀ b, f (g b) = b) :
    ∑ a ∈ Finset.univ.filter p, u a = ∑ b ∈ Finset.univ.filter q, u (g b) :=
  Finset.sum_nbij' f g
    (fun a ha => Finset.mem_filter.mpr ⟨Finset.mem_univ _, (hf a (Finset.mem_filter.mp ha).2).1⟩)
    (fun b hb => Finset.mem_filter.mpr ⟨Finset.mem_univ _, hg b (Finset.mem_filter.mp hb).2⟩)
    (fun a ha => (hf a (Finset.mem_filter.mp ha).2).2) (fun b _ => hfg b)
    (fun a ha => congrArg u (hf a (Finset.mem_filter.mp ha).2).2.symm)

theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) :=
  congrArg (x (ix1 i) + ·) (sum_filter_comp (· 0) ix1 upd
    (fun j hj => ⟨(scatterVec_resultIdx_iff wf idx j _).mp hj, (eq_ix1 j).symm⟩)
    (fun e he => (scatterVec_resultIdx_iff wf idx (ix1 e) _).mpr he) fun _ => rfl)

theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  refine congrArg (x (ix2 i q) + ·) (sum_filter_comp (· 0) (ix2 · q) upd (fun j hj => ?_)
    (fun e he => (scatterRows_resultIdx_iff wf idx (ix2 e q) _).mpr ⟨he, rfl⟩) fun _ => rfl)
  obtain ⟨h0, h1⟩ := (scatterRows_resultIdx_iff wf idx j _).mp hj
  exact ⟨h0, (congrArg (ix2 (j 0)) h1.symm).trans (eq_ix2 j).symm⟩

end Cert.Gcn

end
-- ==== Proof.KI.HostEdges.lean ====
import proofs.«403238_j23510650978598_3_alg».proof.Proof.Gen.KernelIdeal.Regions
import proofs.«403238_j23510650978598_3_alg».proof.Proof.Decode
import proofs.«403238_j23510650978598_3_alg».proof.Proof.LibScatter
import Idealize.ShloMosaic.Lib.StableHlo.Run
import Idealize.ShloMosaic.Lib.ValueLayout
import Idealize.ShloMosaic.Lib.StableHlo.Predicate

noncomputable section

namespace Cert.KernelIdeal.Hand

open Cert.KernelIdeal Cert.KernelIdeal.Gen Idealize.ShloMosaic Idealize.ShloMosaic.TcCoe Idealize.ShloMosaic.ValueIdx
open scoped BigOperators

variable (m : (ℓ : Loc nD τ sig) → Buf (Elt Ideal) ℓ) (outs : Gen.Outs (F := Ideal)) (c : Dev nD)

namespace Edges

def edgeVec (ei : S2x800000.Idx → BitVec 32) (off : Fin 2 → Nat) (h : S2x800000.Slices off S1x800000) :
    S850000.Idx → BitVec 32 :=
  concatenate S850000 0
    [⟨S800000, shapeCast S800000 (extractStridedSlice S1x800000 off ei h) shapeCasts_S1x800000_S800000⟩,
      ⟨S50000, iotaInDim S50000 32 0⟩] concatenates_S800000_S50000_S850000_d0

def wrapVec (w : S850000.Idx → BitVec 32) : S850000.Idx → BitVec 32 :=
  select (cmpi .slt w (broadcastInDim S850000 ![] bcast_S_S850000 (constantI S_ 32 0#32)))
    (addi w (broadcastInDim S850000 ![] bcast_S_S850000 (constantI S_ 32 50000#32))) w

def colVec (w : S850000.Idx → BitVec 32) : S850000x1.Idx → BitVec 32 :=
  broadcastInDim S850000x1 ![0] bcast_S850000_S850000x1_0 w

def degVec (dst : S850000.Idx → BitVec 32) : S50000.Idx → EReal :=
  Host.scatterAdd scatter_S50000_S850000x1_S850000_n_0_0_1
    (broadcastInDim S50000 ![] bcast_S_S50000 (constant (F := Ideal) S_ .f32 0x00000000#32))
    (colVec (wrapVec dst))
    (broadcastInDim S850000 ![] bcast_S_S850000 (constant (F := Ideal) S_ .f32 0x3F800000#32))

-- Below the seam the concatenation reads the flattened slice, past it the node numbers less the seam.
theorem edgeVec_apply (ei : S2x800000.Idx → BitVec 32) (r : Fin 2) (off : Fin 2 → Nat) (hoff0 : off 0 = r.val)
    (hoff1 : off 1 = 0) (h : S2x800000.Slices off S1x800000) (e : Fin 850000) :
    edgeVec ei off h (ix1 e) = Cert.GcnPool.edgeWord ei r e := by
  have hlt := e.isLt
  unfold edgeVec Cert.GcnPool.edgeWord
  by_cases he : e.val < 800000
  · rw [dif_pos he, concatenate_pair_apply_left (t := S850000) (s₁ := S800000) (s₂ := S50000) (0 : Fin 1) _ _
      concatenates_S800000_S50000_S850000_d0 (ix1 e) rfl
      (ix1 (⟨e.val, he⟩ : Fin 800000)) (fun b => by obtain rfl : b = 0 := Subsingleton.elim _ _; rfl),
      shapeCast_1a_a_apply]
    exact extractStridedSlice_apply (s := S2x800000) (t := S1x800000) off ei h _ (ix2 r (⟨e.val, he⟩ : Fin 800000))
      (fun a => by
        match a with
        | ⟨0, _⟩ => show r.val = off 0 + 0; omega
        | ⟨1, _⟩ => show e.val = off 1 + e.val; omega)
  · rw [dif_neg he, concatenate_pair_apply_right (t := S850000) (s₁ := S800000) (s₂ := S50000) (0 : Fin 1) _ _
      concatenates_S800000_S50000_S850000_d0 (ix1 e) rfl rfl
      (ix1 (⟨e.val - 800000, by omega⟩ : Fin 50000)) (fun b hb => absurd (Subsingleton.elim _ _) hb)
      (by show (e.val - 800000) + 800000 = e.val; omega)]
    rfl

theorem wrapVec_apply (w : S850000.Idx → BitVec 32) (j : S850000.Idx) :
    wrapVec w j = Cert.GcnPool.wrapWord (w j) := by
  have hs : BitVec.ofBool ((w j).slt 0#32) = 1 ↔ (w j).toInt < 0 := by
    refine (StableHlo.Predicate.ofBool_eq_one_iff _).trans ?_
    unfold BitVec.slt
    rw [decide_eq_true_eq, show (0#32 : BitVec 32).toInt = 0 from by decide]
  exact if_congr hs rfl rfl

theorem colVec_apply (w : S850000.Idx → BitVec 32) (e : Fin 850000) : colVec w (ix2 e 0) = w (ix1 e) :=
  broadcastInDim_apply _ _ w (ix2 e 0) (ix1 e) fun a => by
    obtain rfl : a = 0 := Subsingleton.elim _ _
    exact (if_neg (by decide)).symm

theorem constVec_apply {t : Shape} (h : S_.BroadcastsInDim t ![]) (b : BitVec 32) (j : t.Idx) :
    broadcastInDim t ![] h (constant (F := Ideal) S_ .f32 b) j = Ideal.ofBits .f32 b := rfl

theorem vecScatter_apply (x : S50000.Idx → EReal) (idx : S850000x1.Idx → BitVec 32) (upd : S850000.Idx → EReal)
    (n : Fin 50000) :
    Host.scatterAdd (F := Ideal) (φ := .f32) scatter_S50000_S850000x1_S850000_n_0_0_1 x idx upd (ix1 n)
      = x (ix1 n) + ∑ e ∈ Finset.univ.filter (fun e : Fin 850000 => (idx (ix2 e (0 : Fin 1))).toInt = (n.val : Int)),
          upd (ix1 e) :=
  Cert.Gcn.scatterAddVec_apply scatter_S50000_S850000x1_S850000_n_0_0_1_wf x idx upd n

theorem degVec_apply (dst : S850000.Idx → BitVec 32) (n : Fin 50000) :
    degVec dst (ix1 n)
      = Cert.GcnPool.zeroWord + ∑ _e ∈ Finset.univ.filter
          (fun e : Fin 850000 => (Cert.GcnPool.wrapWord (dst (ix1 e))).toInt = (n.val : Int)), Cert.GcnPool.oneWord := by
  unfold degVec
  refine (vecScatter_apply _ _ _ n).trans ?_
  refine congrArg₂ (· + ·) (constVec_apply _ _ _) ?_
  refine Finset.sum_congr (Finset.filter_congr fun e _ => ?_) (fun e _ => constVec_apply _ _ _)
  rw [colVec_apply, wrapVec_apply]

def scaleVec (d : S50000.Idx → EReal) : S50000.Idx → EReal :=
  select (cmpf .ogt d (broadcastInDim S50000 ![] bcast_S_S50000 (constant (F := Ideal) S_ .f32 0x00000000#32)))
    (Host.rsqrt (F := Ideal) (φ := .f32) d) (broadcastInDim S50000 ![] bcast_S_S50000 (constant (F := Ideal) S_ .f32 0x00000000#32))

theorem scaleVec_apply (d : S50000.Idx → EReal) (j : S50000.Idx) :
    scaleVec d j = if Cert.GcnPool.zeroWord < d j then Ideal.rsqrt (d j) else Cert.GcnPool.zeroWord :=
  if_congr ((StableHlo.Predicate.ofBool_eq_one_iff _).trans decide_eq_true_iff) rfl rfl

theorem colView_apply {α : Type} (x : S50000.Idx → α) (n : Fin 50000) :
    shapeCast S50000x1 x shapeCasts_S50000_S50000x1 (ix2 n 0) = x (ix1 n) := by
  refine shapeCast_apply (s := S50000) (t := S50000x1) x _ (ix2 n 0) (ix1 n) ?_
  rw [Shape.rowMajor_val_two, Shape.rowMajor_val_one]
  show n.val = n.val * 1 + 0
  omega

theorem ops0_src (W : Valuation τ sig (Elt Ideal)) :
    (StableHlo.after hostOps0 W (Proc.devRef .tc main_v3) : S850000.Idx → BitVec 32)
      = edgeVec (W (Proc.devRef .tc main_arg1)) ![0, 0] slices_S2x800000_S1x800000_0_0 := by
  after_results
  rfl

theorem ops0_dst (W : Valuation τ sig (Elt Ideal)) :
    (StableHlo.after hostOps0 W (Proc.devRef .tc main_v6) : S850000.Idx → BitVec 32)
      = edgeVec (W (Proc.devRef .tc main_arg1)) ![1, 0] slices_S2x800000_S1x800000_1_0 := by
  after_results
  rfl

theorem ops0_scale (W : Valuation τ sig (Elt Ideal)) :
    select (StableHlo.after hostOps0 W (Proc.devRef .tc main_v17) : S50000.Idx → BitVec 1)
        (StableHlo.after hostOps0 W (Proc.devRef .tc main_v18) : S50000.Idx → EReal)
        (broadcastInDim S50000 ![] bcast_S_S50000 (StableHlo.after hostOps0 W (Proc.devRef .tc main_cst_3) : S_.Idx → EReal))
      = scaleVec (degVec (edgeVec (W (Proc.devRef .tc main_arg1)) ![1, 0] slices_S2x800000_S1x800000_1_0)) := by
  after_results_simp
  rfl

theorem ops01_scale (W : Valuation τ sig (Elt Ideal)) :
    (StableHlo.after hostOps0_1 W (Proc.devRef .tc main_v19) : S50000.Idx → EReal)
      = select (W (Proc.devRef .tc main_v17)) (W (Proc.devRef .tc main_v18))
          (broadcastInDim S50000 ![] bcast_S_S50000 (W (Proc.devRef .tc main_cst_3))) := by
  after_results
  rfl

theorem ops02_col (W : Valuation τ sig (Elt Ideal)) :
    (StableHlo.after hostOps0_2 W (Proc.devRef .tc main_v20) : S50000x1.Idx → EReal)
      = shapeCast S50000x1 (W (Proc.devRef .tc main_v19)) shapeCasts_S50000_S50000x1 := by
  after_results
  rfl

theorem scale_array :
    (Gen.V3 m c main_v20 : S50000x1.Idx → EReal)
      = shapeCast S50000x1 (scaleVec (degVec (edgeVec (m ((c : Thread nD τ).loc main_arg1)) ![1, 0]
          slices_S2x800000_S1x800000_1_0))) shapeCasts_S50000_S50000x1 := by
  refine (ops02_col (Gen.V2 m c)).trans ?_
  rw [show (Gen.V2 m c (Proc.devRef .tc main_v19) : S50000.Idx → EReal) = _ from ops01_scale (Gen.V1 m c)]
  exact congrArg (shapeCast S50000x1 · shapeCasts_S50000_S50000x1) (ops0_scale (Gen.V0 m c))

def arrivedArr (y : S50000x256.Idx → EReal) (src dst : S850000.Idx → BitVec 32) : S50000x256.Idx → EReal :=
  Host.scatterAdd (F := Ideal) (φ := .f32) scatter_S50000x256_S850000x1_S850000x256_1_0_0_1
    (broadcastInDim S50000x256 ![] bcast_S_S50000x256 (constant (F := Ideal) S_ .f32 0x00000000#32))
    (colVec dst)
    (extf (F := Ideal) (φ := .bf16) .f32
      (Host.gather gather_S50000x256_S850000x1_S850000x256_1_0_n_n_0_1_1256
        (truncf (F := Ideal) (φ := .f32) .bf16 y bitsLt_bf16_f32) (colVec (wrapVec src))) bitsLt_bf16_f32)

theorem rowScatter_apply (x : S50000x256.Idx → EReal) (idx : S850000x1.Idx → BitVec 32) (upd : S850000x256.Idx → EReal)
    (n : Fin 50000) (q : Fin 256) :
    Host.scatterAdd (F := Ideal) (φ := .f32) scatter_S50000x256_S850000x1_S850000x256_1_0_0_1 x idx upd (ix2 n q)
      = x (ix2 n q) + ∑ e ∈ Finset.univ.filter (fun e : Fin 850000 => (idx (ix2 e (0 : Fin 1))).toInt = (n.val : Int)),
          upd (ix2 e q) :=
  Cert.Gcn.scatterAddRows_apply scatter_S50000x256_S850000x1_S850000x256_1_0_0_1_wf x idx upd n q

theorem rowGather_apply {α : Type} (x : S50000x256.Idx → α) (idx : S850000x1.Idx → BitVec 32) (e : Fin 850000)
    (q : Fin 256) :
    Host.gather gather_S50000x256_S850000x1_S850000x256_1_0_n_n_0_1_1256 x idx (ix2 e q)
      = x (ix2 (Cert.Gcn.crow 50000 (by decide) (idx (ix2 e (0 : Fin 1)))) q) :=
  Cert.Gcn.gatherRows_apply (by decide) gather_S50000x256_S850000x1_S850000x256_1_0_n_n_0_1_1256_wf x idx (ix2 e q)

theorem arrivedArr_apply (y : S50000x256.Idx → EReal) (src dst : S850000.Idx → BitVec 32) (n : Fin 50000) (q : Fin 256) :
    arrivedArr y src dst (ix2 n q)
      = ∑ e ∈ Finset.univ.filter (fun e : Fin 850000 => (dst (ix1 e)).toInt = (n.val : Int)),
          y (ix2 (Cert.GcnPool.rowOf (src (ix1 e))) q) := by
  unfold arrivedArr
  refine (rowScatter_apply _ _ _ n q).trans ?_
  rw [constVec_apply, Ideal.ofBits_zero_f32, zero_add]
  refine Finset.sum_congr (Finset.filter_congr fun e _ => ?_) (fun e _ => ?_)
  · rw [colVec_apply]
  · -- widening and narrowing are the identity here, so the update row is the gathered row
    refine (rowGather_apply (truncf (F := Ideal) (φ := .f32) .bf16 y bitsLt_bf16_f32) _ e q).trans ?_
    rw [colVec_apply, wrapVec_apply]
    rfl

theorem ops1_arrived (W : Valuation τ sig (Elt Ideal)) :
    (StableHlo.after hostOps1 W (Proc.devRef .tc main_v33) : S50000x256.Idx → EReal)
      = arrivedArr (W (Proc.devRef .tc main_v21)) (W (Proc.devRef .tc main_v3)) (W (Proc.devRef .tc main_v6)) := by
  after_results_simp
  rfl

theorem V4_V1 (r : Ref sig .tc) (h4 : r ∉ ([main_v21] : List (Ref sig .tc))) (h3 : r ∉ hostOps0_2_W)
    (h2 : r ∉ hostOps0_1_W) : Gen.V4 m outs c r = Gen.V1 m c r :=
  (V4_of m outs c r h4).trans <| (V3_of m c r h3).trans (V2_of m c r h2)

theorem V4_arg (r : Ref sig .tc) (h4 : r ∉ ([main_v21] : List (Ref sig .tc))) (h3 : r ∉ hostOps0_2_W)
    (h2 : r ∉ hostOps0_1_W) (h1 : r ∉ hostOps0_W) : Gen.V4 m outs c r = m ((c : Thread nD τ).loc r) :=
  (V4_V1 m outs c r h4 h3 h2).trans <| (V1_of m c r h1).trans rfl

end Edges

open Edges

theorem entry_features : Gen.V3 m c main_arg0 = m ((c : Thread nD τ).loc main_arg0) :=
  (V3_of m c main_arg0 (by decide)).trans <| (V2_of m c main_arg0 (by decide)).trans <|
    (V1_of m c main_arg0 (by decide)).trans rfl

theorem entry_weights : Gen.V3 m c main_arg3 = m ((c : Thread nD τ).loc main_arg3) :=
  (V3_of m c main_arg3 (by decide)).trans <| (V2_of m c main_arg3 (by decide)).trans <|
    (V1_of m c main_arg3 (by decide)).trans rfl

theorem scale_value (n : Fin 50000) :
    (Gen.V3 m c main_v20 : S50000x1.Idx → EReal) (ix2 n 0)
      = Cert.GcnPool.dinvOf (m ((c : Thread nD τ).loc main_arg1) : S2x800000.Idx → BitVec 32) n := by
  rw [scale_array m c, colView_apply, scaleVec_apply, degVec_apply]
  unfold Cert.GcnPool.dinvOf Cert.GcnPool.degOf
  simp only [edgeVec_apply _ (1 : Fin 2) ![1, 0] rfl rfl]

theorem arrived_value (n : Fin 50000) (q : Fin 256) :
    (Gen.V5 m outs c main_v33 : S50000x256.Idx → EReal) (ix2 n q)
      = (∑ e ∈ Cert.GcnPool.arriving
            (Cert.GcnPool.dstWord (m ((c : Thread nD τ).loc main_arg1) : S2x800000.Idx → BitVec 32)) n,
          (outs 4 main_v21 c : S50000x256.Idx → EReal)
            (ix2 (Cert.GcnPool.srcRow (m ((c : Thread nD τ).loc main_arg1) : S2x800000.Idx → BitVec 32) e) q) : EReal) := by
  have h33 := ops1_arrived (Gen.V4 m outs c)
  rw [show Gen.V4 m outs c (Proc.devRef .tc main_v21) = outs 4 main_v21 c from Function.update_self _ _ _,
    show (Gen.V4 m outs c (Proc.devRef .tc main_v3) : S850000.Idx → BitVec 32) = _ from
      (V4_V1 m outs c main_v3 (by decide) (by decide) (by decide)).trans (ops0_src (Gen.V0 m c)),
    show (Gen.V4 m outs c (Proc.devRef .tc main_v6) : S850000.Idx → BitVec 32) = _ from
      (V4_V1 m outs c main_v6 (by decide) (by decide) (by decide)).trans (ops0_dst (Gen.V0 m c))] at h33
  refine (congrFun h33 (ix2 n q)).trans ((arrivedArr_apply _ _ _ n q).trans ?_)
  refine Finset.sum_congr (Finset.filter_congr fun e _ => ?_) (fun e _ => ?_)
  · rw [edgeVec_apply _ (1 : Fin 2) ![1, 0] rfl rfl]
  · rw [edgeVec_apply _ (0 : Fin 2) ![0, 0] rfl rfl]

theorem scale_kept : Gen.V5 m outs c main_v20 = Gen.V3 m c main_v20 :=
  (V5_of m outs c main_v20 (by decide)).trans (V4_of m outs c main_v20 (by decide))

theorem bias_value (q : Fin 256) :
    (Gen.V5 m outs c main_v34 : S1x256.Idx → EReal) (ix2 0 q)
      = (m ((c : Thread nD τ).loc main_arg4) : S256.Idx → EReal) (ix1 q) := by
  rw [← V4_arg m outs c main_arg4 (by decide) (by decide) (by decide) (by decide)]
  show StableHlo.after hostOps1 (V4 m outs c) (Proc.devRef .tc main_v34) (ix2 0 q) = _
  generalize V4 m outs c = W
  after_results
  exact shapeCast_a_1a_apply _ _ 0 q

theorem gamma_value (q : Fin 256) :
    (Gen.V5 m outs c main_v35 : S1x256.Idx → EReal) (ix2 0 q)
      = (m ((c : Thread nD τ).loc main_arg5) : S256.Idx → EReal) (ix1 q) := by
  rw [← V4_arg m outs c main_arg5 (by decide) (by decide) (by decide) (by decide)]
  show StableHlo.after hostOps1 (V4 m outs c) (Proc.devRef .tc main_v35) (ix2 0 q) = _
  generalize V4 m outs c = W
  after_results
  exact shapeCast_a_1a_apply _ _ 0 q

theorem beta_value (q : Fin 256) :
    (Gen.V5 m outs c main_v36 : S1x256.Idx → EReal) (ix2 0 q)
      = (m ((c : Thread nD τ).loc main_arg6) : S256.Idx → EReal) (ix1 q) := by
  rw [← V4_arg m outs c main_arg6 (by decide) (by decide) (by decide) (by decide)]
  show StableHlo.after hostOps1 (V4 m outs c) (Proc.devRef .tc main_v36) (ix2 0 q) = _
  generalize V4 m outs c = W
  after_results
  exact shapeCast_a_1a_apply _ _ 0 q

end Cert.KernelIdeal.Hand

end
-- ==== Proof.KI.HostPool.lean ====
import proofs.«403238_j23510650978598_3_alg».proof.Proof.Gen.KernelIdeal.Regions
import proofs.«403238_j23510650978598_3_alg».proof.Proof.Decode
import proofs.«403238_j23510650978598_3_alg».proof.Proof.LibScatter
import Idealize.ShloMosaic.Lib.StableHlo.Run
import Idealize.ShloMosaic.Lib.ValueLayout
import Idealize.ShloMosaic.Lib.StableHlo.Predicate

noncomputable section

namespace Cert.KernelIdeal.Hand

open Cert.KernelIdeal Cert.KernelIdeal.Gen Idealize.ShloMosaic Idealize.ShloMosaic.TcCoe Idealize.ShloMosaic.ValueIdx
open scoped BigOperators

variable (m : (ℓ : Loc nD τ sig) → Buf (Elt Ideal) ℓ) (outs : Gen.Outs (F := Ideal)) (c : Dev nD)

theorem kept (r : Ref sig .tc) (h7 : r ∉ hostOps2_W) (h6 : r ∉ ([main_v37_0, main_v37_1] : List (Ref sig .tc))) :
    Gen.V7 m outs c r = Gen.V5 m outs c r :=
  (Gen.V7_of m outs c r h7).trans (Gen.V6_of m outs c r h6)

theorem kept_arrived : Gen.V7 m outs c main_v33 = Gen.V5 m outs c main_v33 := kept m outs c _ (by decide) (by decide)

theorem kept_scale : Gen.V7 m outs c main_v20 = Gen.V5 m outs c main_v20 := kept m outs c _ (by decide) (by decide)

theorem kept_bias : Gen.V7 m outs c main_v34 = Gen.V5 m outs c main_v34 := kept m outs c _ (by decide) (by decide)

theorem kept_gamma : Gen.V7 m outs c main_v35 = Gen.V5 m outs c main_v35 := kept m outs c _ (by decide) (by decide)

theorem kept_beta : Gen.V7 m outs c main_v36 = Gen.V5 m outs c main_v36 := kept m outs c _ (by decide) (by decide)

theorem entry_mean : Gen.V7 m outs c main_v37_0 = outs 6 main_v37_0 c :=
  (Gen.V7_of m outs c main_v37_0 (by decide)).trans <|
    (Function.update_of_ne (StableHlo.devRef_ne_of_ne (by decide)) _ _).trans (Function.update_self _ _ _)

theorem entry_var : Gen.V7 m outs c main_v37_1 = outs 6 main_v37_1 c :=
  (Gen.V7_of m outs c main_v37_1 (by decide)).trans (Function.update_self _ _ _)

theorem entry_classifier : Gen.V9 m outs c main_arg7 = m ((c.tc : Thread nD τ).loc main_arg7) :=
  (Gen.V10_of m outs c main_arg7 (by decide)).symm.trans (Gen.V10_main_arg7 m outs c)

theorem words_kept : Gen.V6 m outs c main_arg2 = m ((c.tc : Thread nD τ).loc main_arg2) :=
  ((Gen.V10_of m outs c main_arg2 (by decide)).trans <| (Gen.V9_of m outs c main_arg2 (by decide)).trans <|
    (Gen.V8_of m outs c main_arg2 (by decide)).trans (Gen.V7_of m outs c main_arg2 (by decide))).symm.trans
    (Gen.V10_main_arg2 m outs c)

def tableTerm (bt : S50000.Idx → BitVec 32) : S50000x64.Idx → EReal :=
  uitofp (F := Ideal) .bf16
    (cmpi .eq
      (broadcastInDim S50000x64 ![0, 1] bcast_S50000x1_S50000x64_0_1 (broadcastInDim S50000x1 ![0] bcast_S50000_S50000x1_0 bt))
      (broadcastInDim S50000x64 ![0, 1] bcast_S1x64_S50000x64_0_1 (broadcastInDim S1x64 ![1] bcast_S64_S1x64_1 (iotaInDim S64 32 0))))

def countTerm (bt : S50000.Idx → BitVec 32) : S64.Idx → EReal :=
  Host.scatterAdd (F := Ideal) scatter_S64_S50000x1_S50000_n_0_0_1
    (broadcastInDim S64 ![] bcast_S_S64 (constant (F := Ideal) S_ .f32 0x00000000#32))
    (broadcastInDim S50000x1 ![0] bcast_S50000_S50000x1_0 bt)
    (broadcastInDim S50000 ![] bcast_S_S50000 (constant (F := Ideal) S_ .f32 0x3F800000#32))

theorem count_term : (Gen.V7 m outs c main_v48 : S64.Idx → EReal) = countTerm (Gen.V6 m outs c main_arg2) := by
  show StableHlo.after hostOps2 (V6 m outs c) (Proc.devRef .tc main_v48) = _
  generalize V6 m outs c = W
  after_results
  rfl

-- The comparison yields one bit; read unsigned it is the natural number one or zero.
theorem tableTerm_apply (bt : S50000.Idx → BitVec 32) (n : Fin 50000) (g : Fin 64) :
    tableTerm bt (ix2 n g) = Cert.GcnPool.memberTable (fun n => bt (ix1 n)) n g := by
  refine (congrArg₂ (fun a b => FloatOps.uitofp (F := Ideal) .bf16 (IntOp.cmpi .eq a b))
    ((StableHlo.Predicate.bcast_rows _ _ bt n g).trans (congrArg bt (Shape.Idx.eq_ofFin (ix1 n)).symm))
    ((StableHlo.Predicate.bcast_cols _ _ (iotaInDim S64 32 0) n g).trans (StableHlo.Predicate.iota_apply g))).trans ?_
  unfold Cert.GcnPool.memberTable
  by_cases h : bt (ix1 n) = BitVec.ofNat 32 g.val
  · rw [if_pos h, StableHlo.Predicate.cmpi_eq_iff.mpr h]
    show (((1 : ℕ) : ℝ) : EReal) = 1
    rw [Nat.cast_one, EReal.coe_one]
  · rw [if_neg h, eq_zero_of_ne_one fun h1 => h (StableHlo.Predicate.cmpi_eq_iff.mp h1)]
    show (((0 : ℕ) : ℝ) : EReal) = 0
    rw [Nat.cast_zero, EReal.coe_zero]

theorem countTerm_apply (bt : S50000.Idx → BitVec 32) (g : Fin 64) :
    countTerm bt (ix1 g) = Cert.GcnPool.countOf (fun n => bt (ix1 n)) Cert.GcnPool.oneWord g := by
  refine (Cert.Gcn.scatterAddVec_apply scatter_S64_S50000x1_S50000_n_0_0_1_wf _ _ _ g).trans ?_
  have hidx : ∀ e : Fin 50000, broadcastInDim S50000x1 ![0] bcast_S50000_S50000x1_0 bt (ix2 e 0) = bt (ix1 e) := fun e => by
    rw [broadcastInDim_apply _ _ _ (ix2 e 0) (ix1 e) (by intro a; fin_cases a; rfl)]
  simp only [hidx]
  exact (congrArg (· + _) Ideal.ofBits_zero_f32).trans (zero_add _)

theorem table_value (n : Fin 50000) (g : Fin 64) : (Gen.V7 m outs c main_v44 : S50000x64.Idx → EReal) (ix2 n g)
    = Cert.GcnPool.memberTable (fun n => (m ((c.tc : Thread nD τ).loc main_arg2) : S50000.Idx → BitVec 32) (ix1 n)) n g := by
  rw [← words_kept m outs c]
  show StableHlo.after hostOps2 (V6 m outs c) (Proc.devRef .tc main_v44) (ix2 n g) = _
  generalize V6 m outs c = W
  after_results
  exact tableTerm_apply _ n g

def pooledTerm (s : S64x256.Idx → EReal) (cnt : S64.Idx → EReal) : S64x256.Idx → EReal :=
  Host.divf (F := Ideal) s
    (broadcastInDim S64x256 ![0, 1] bcast_S64x1_S64x256_0_1
      (broadcastInDim S64x1 ![0] bcast_S64_S64x1_0
        (maximumf (F := Ideal) cnt (broadcastInDim S64 ![] bcast_S_S64 (constant (F := Ideal) S_ .f32 0x3F800000#32)))))

theorem pooled_term : (Gen.V9 m outs c main_v54 : S64x256.Idx → EReal)
    = pooledTerm (Gen.V8 m outs c main_v49) (Gen.V8 m outs c main_v48) := by
  show StableHlo.after hostOps3 (V8 m outs c) (Proc.devRef .tc main_v54) = _
  generalize V8 m outs c = W
  after_results
  rfl

theorem pooledTerm_apply (s : S64x256.Idx → EReal) (cnt : S64.Idx → EReal) (g : Fin 64) (q : Fin 256) :
    pooledTerm s cnt (ix2 g q) = Ideal.div (s (ix2 g q)) (max (cnt (ix1 g)) Cert.GcnPool.oneWord) :=
  congrArg (Ideal.div (s (ix2 g q))) ((StableHlo.Predicate.bcast_rows _ _ _ g q).trans
    (congrArg (fun k => max (cnt k) Cert.GcnPool.oneWord) (Shape.Idx.eq_ofFin (ix1 g)).symm))

theorem pooled_value (g : Fin 64) (q : Fin 256) : (Gen.V9 m outs c main_v54 : S64x256.Idx → EReal) (ix2 g q)
    = Cert.GcnPool.meanPool (fun g q => (outs 8 main_v49 c : S64x256.Idx → EReal) (ix2 g q))
        (Cert.GcnPool.countOf (fun n => (m ((c.tc : Thread nD τ).loc main_arg2) : S50000.Idx → BitVec 32) (ix1 n)) Cert.GcnPool.oneWord)
        Cert.GcnPool.oneWord g q := by
  rw [pooled_term, show Gen.V8 m outs c main_v49 = outs 8 main_v49 c from Function.update_self _ _ _, pooledTerm_apply,
    show Gen.V8 m outs c main_v48 = Gen.V7 m outs c main_v48 from Gen.V8_of m outs c main_v48 (by decide),
    count_term, words_kept, countTerm_apply]
  rfl

theorem classbias_value (k : Fin 60) : (Gen.V9 m outs c main_v55 : S1x60.Idx → EReal) (ix2 0 k)
    = (m ((c.tc : Thread nD τ).loc main_arg8) : S60.Idx → EReal) (ix1 k) := by
  rw [← show Gen.V8 m outs c main_arg8 = m ((c.tc : Thread nD τ).loc main_arg8) from
    ((Gen.V10_of m outs c main_arg8 (by decide)).trans (Gen.V9_of m outs c main_arg8 (by decide))).symm.trans
      (Gen.V10_main_arg8 m outs c)]
  show StableHlo.after hostOps3 (V8 m outs c) (Proc.devRef .tc main_v55) (ix2 0 k) = _
  generalize V8 m outs c = W
  after_results
  exact shapeCast_a_1a_apply _ _ 0 k

end Cert.KernelIdeal.Hand

end
-- ==== Proof.Laws.lean ====
import proofs.«403238_j23510650978598_3_alg».proof.Proof.Decode
import Idealize.ShloMosaic.Lib.IdealHost
import Mathlib.Tactic.Ring
import Mathlib.Tactic.NormNum

noncomputable section

namespace Cert.GcnPool

open Idealize.ShloMosaic Idealize.ShloMosaic.ValueIdx
open scoped BigOperators

theorem nodesWord_eq : nodesWord = ((50000 : ℝ) : EReal) := by
  show Ideal.ofBits .f32 0x47435000#32 = _
  simp [Ideal.ofBits, Ideal.ieee, -EReal.coe_mul]; norm_num

theorem coe_sum {ι : Type} (S : Finset ι) (g : ι → ℝ) : ((∑ i ∈ S, g i : ℝ) : EReal) = ∑ i ∈ S, (g i : EReal) :=
  map_sum (⟨⟨Real.toEReal, rfl⟩, EReal.coe_add⟩ : ℝ →+ EReal) g S

theorem finite_add {a b : EReal} (ha : ∃ r : ℝ, a = r) (hb : ∃ r : ℝ, b = r) : ∃ r : ℝ, a + b = r := by
  obtain ⟨x, rfl⟩ := ha
  obtain ⟨y, rfl⟩ := hb
  exact ⟨x + y, rfl⟩

theorem finite_mul {a b : EReal} (ha : ∃ r : ℝ, a = r) (hb : ∃ r : ℝ, b = r) : ∃ r : ℝ, a * b = r := by
  obtain ⟨x, rfl⟩ := ha
  obtain ⟨y, rfl⟩ := hb
  exact ⟨x * y, rfl⟩

theorem finite_sum {ι : Type} (S : Finset ι) {g : ι → EReal} (hg : ∀ i, ∃ r : ℝ, g i = r) :
    ∃ r : ℝ, ∑ i ∈ S, g i = r := by
  choose r hr using hg
  exact ⟨∑ i ∈ S, r i, by simp only [hr, coe_sum]⟩

-- Multiplication distributes over a sum of reals: a finite common factor leaves a sum of finite terms.
theorem sum_mul_finite {ι : Type} (S : Finset ι) {t : ι → EReal} {d : EReal} (ht : ∀ i, ∃ r : ℝ, t i = r)
    (hd : ∃ r : ℝ, d = r) : ∑ i ∈ S, t i * d = (∑ i ∈ S, t i) * d := by
  choose r hr using ht
  obtain ⟨y, rfl⟩ := hd
  simp only [hr, ← EReal.coe_mul, ← coe_sum, Finset.sum_mul]

-- A word that reads as a node's number is not negative and inside the node range: wrapping and clamping leave it.
theorem rowOf_of_toInt (w : BitVec 32) (n : Fin 50000) (h : w.toInt = (n.val : Int)) : rowOf w = n := by
  have hn := n.isLt
  unfold rowOf wrapWord
  rw [if_neg (by omega)]
  have hc := Cert.Gcn.crow_val_of_range (N := 50000) (by decide) w (by omega) (by omega)
  exact Fin.ext (by omega)

section
variable {f : Fin 50000 → Fin 256 → EReal} {bias : Fin 256 → EReal} {src : Fin 850000 → Fin 50000}
  {dst : Fin 850000 → BitVec 32} {dinv : Fin 50000 → EReal}
  (hf : ∀ i q, ∃ r : ℝ, f i q = r) (hd : ∀ i, ∃ r : ℝ, dinv i = r)
include hf hd

-- On the edges arriving at a node the destination's scale is that node's: a finite common factor of the sum.
theorem aggPerEdge_eq_aggFactored :
    aggPerEdge f bias src dst dinv (fun e => dinv (rowOf (dst e))) = aggFactored f bias src dst dinv := by
  funext n q
  unfold aggPerEdge aggFactored
  rw [← sum_mul_finite (arriving dst n) (t := fun e => f (src e) q * dinv (src e))
    (fun e => finite_mul (hf _ q) (hd _)) (hd n)]
  refine congrArg (· + bias q) (Finset.sum_congr rfl fun e he => ?_)
  simp only [rowOf_of_toInt _ n (Finset.mem_filter.mp he).2, mul_assoc]

theorem aggFactored_finite (hb : ∀ q, ∃ r : ℝ, bias q = r) (n : Fin 50000) (q : Fin 256) :
    ∃ r : ℝ, aggFactored f bias src dst dinv n q = r :=
  finite_add (finite_mul (finite_sum _ fun e => finite_mul (hf (src e) q) (hd (src e))) (hd n)) (hb q)

end

-- Among the reals the mean of squares less the squared mean is the mean squared deviation.
theorem moments_eq_centered (r : Fin 50000 → ℝ) (μ : ℝ) (hμ : (∑ n, r n) / 50000 = μ) :
    (∑ n, r n * r n) * (1 / 50000) - μ * μ = (∑ n, (r n - μ) * (r n - μ)) * (1 / 50000) := by
  have h : ∀ n, (r n - μ) * (r n - μ) = r n * r n - 2 * μ * r n + μ * μ := fun n => by ring
  simp only [h, Finset.sum_add_distrib, Finset.sum_sub_distrib, ← Finset.mul_sum, Finset.sum_const,
    Finset.card_univ, Fintype.card_fin, nsmul_eq_mul]
  rw [← hμ]
  push_cast
  ring

-- The mean squared deviation is a mean of squares, never negative, so the clamp at zero changes nothing.
theorem varMoments_eq_varCentered (a : Fin 50000 → Fin 256 → EReal) (ha : ∀ n q, ∃ r : ℝ, a n q = r) :
    varMoments a = varCentered a := by
  funext q
  choose r hr using ha
  obtain ⟨μ, hμ⟩ : ∃ μ : ℝ, (∑ n, r n q) / 50000 = μ := ⟨_, rfl⟩
  have h5 := Ideal.div_coe (by norm_num : (50000 : ℝ) ≠ 0)
  have hmean : meanOf a q = (μ : EReal) := by
    unfold meanOf
    simp only [hr, nodesWord_eq, h5, ← coe_sum, ← EReal.coe_mul, mul_one_div, hμ]
  unfold varMoments varCentered
  simp only [hmean, hr, nodesWord_eq, h5, ← EReal.coe_mul, ← EReal.coe_sub, ← coe_sum]
  rw [moments_eq_centered _ μ hμ]
  exact max_eq_left (EReal.coe_nonneg.mpr
    (mul_nonneg (Finset.sum_nonneg fun n _ => mul_self_nonneg _) (by norm_num)))

-- A graph number is below 2 ^ 31, so its word reads back as itself, and reading signed is injective.
theorem word_eq_ofNat_iff (w : BitVec 32) (g : Fin 64) : w = BitVec.ofNat 32 g.val ↔ w.toInt = (g.val : Int) := by
  have hg := g.isLt
  rw [← BitVec.toInt_inj, BitVec.toInt_eq_toNat_cond (x := BitVec.ofNat 32 g.val), BitVec.toNat_ofNat]
  omega

-- One times a value is the value and zero times a value is zero, at the infinities too.
theorem poolTable_memberTable (batch : Fin 50000 → BitVec 32) (h : Fin 50000 → Fin 256 → EReal) :
    poolTable (memberTable batch) h = poolMembers batch h := by
  funext g q
  unfold poolTable poolMembers memberTable
  rw [Finset.sum_filter]
  refine Finset.sum_congr rfl fun n _ => ?_
  simp only [word_eq_ofNat_iff]
  split_ifs
  · exact one_mul _
  · exact zero_mul _

theorem xw_finite {x : Fin 50000 → Fin 256 → EReal} {W : Fin 256 → Fin 256 → EReal}
    (hx : ∀ i k, ∃ r : ℝ, x i k = r) (hW : ∀ k q, ∃ r : ℝ, W k q = r) (i : Fin 50000) (q : Fin 256) :
    ∃ r : ℝ, xw x W i q = r :=
  finite_sum _ fun k => finite_mul (hx i k) (hW k q)

-- A degree is a finite sum of ones; its scale is the reciprocal square root of a positive real, or zero.
theorem dinvOf_finite (ei : (⟨2, ![2, 800000]⟩ : Shape).Idx → BitVec 32) (n : Fin 50000) :
    ∃ r : ℝ, dinvOf ei n = r := by
  obtain ⟨d, hd⟩ : ∃ d : ℝ, degOf ei n = d :=
    finite_add ⟨0, Ideal.ofBits_zero_f32⟩ (finite_sum _ fun _ => ⟨1, Ideal.ofBits_one_f32⟩)
  unfold dinvOf zeroWord
  rw [hd, Ideal.ofBits_zero_f32]
  by_cases h : (0 : EReal) < (d : EReal)
  · have h0 : 0 < d := EReal.coe_pos.mp h
    rw [if_pos h, Ideal.rsqrt_coe, if_neg (not_lt.mpr h0.le), if_neg h0.ne']
    exact ⟨_, rfl⟩
  · exact ⟨0, if_neg h⟩

end Cert.GcnPool

end
-- ==== Proof.KI.Result.lean ====
import proofs.«403238_j23510650978598_3_alg».proof.Proof.KI.Run
import proofs.«403238_j23510650978598_3_alg».proof.Proof.KI.MatmulValue
import proofs.«403238_j23510650978598_3_alg».proof.Proof.KI.StatsValue
import proofs.«403238_j23510650978598_3_alg».proof.Proof.KI.PoolValue
import proofs.«403238_j23510650978598_3_alg».proof.Proof.KI.ClassifyValue
import proofs.«403238_j23510650978598_3_alg».proof.Proof.KI.HostEdges
import proofs.«403238_j23510650978598_3_alg».proof.Proof.KI.HostPool
import proofs.«403238_j23510650978598_3_alg».proof.Proof.Laws

noncomputable section

namespace Cert.KernelIdeal.Hand

open Cert.KernelIdeal Cert.KernelIdeal.Gen
open Idealize.ShloMosaic Idealize.ShloMosaic.TcCoe Idealize.ShloMosaic.ValueIdx
open Cert.GcnPool
open scoped BigOperators

variable (m : (ℓ : Loc nD τ sig) → Buf (Elt Ideal) ℓ) (c : Dev nD)

abbrev featuresOf : Fin 50000 → Fin 256 → EReal := fun i k => (m ((c.tc : Thread nD τ).loc main_arg0) : S50000x256.Idx → EReal) (ix2 i k)
abbrev weightsOf : Fin 256 → Fin 256 → EReal := fun k q => (m ((c.tc : Thread nD τ).loc main_arg3) : S256x256.Idx → EReal) (ix2 k q)
abbrev edgesOf : S2x800000.Idx → BitVec 32 := (m ((c.tc : Thread nD τ).loc main_arg1) : S2x800000.Idx → BitVec 32)
abbrev graphOf : Fin 50000 → BitVec 32 := fun n => (m ((c.tc : Thread nD τ).loc main_arg2) : S50000.Idx → BitVec 32) (ix1 n)
abbrev biasOf : Fin 256 → EReal := fun q => (m ((c.tc : Thread nD τ).loc main_arg4) : S256.Idx → EReal) (ix1 q)
abbrev gammaOf : Fin 256 → EReal := fun q => (m ((c.tc : Thread nD τ).loc main_arg5) : S256.Idx → EReal) (ix1 q)
abbrev betaOf : Fin 256 → EReal := fun q => (m ((c.tc : Thread nD τ).loc main_arg6) : S256.Idx → EReal) (ix1 q)
abbrev classifierOf : Fin 60 → Fin 256 → EReal := fun k q => (m ((c.tc : Thread nD τ).loc main_arg7) : S60x256.Idx → EReal) (ix2 k q)
abbrev classBiasOf : Fin 60 → EReal := fun k => (m ((c.tc : Thread nD τ).loc main_arg8) : S60.Idx → EReal) (ix1 k)

abbrev layerOf : Fin 50000 → Fin 256 → EReal :=
  aggFactored (xw (featuresOf m c) (weightsOf m c)) (biasOf m c) (srcRow (edgesOf m c)) (dstWord (edgesOf m c)) (dinvOf (edgesOf m c))

abbrev edgeLayerOf : Fin 50000 → Fin 256 → EReal :=
  aggPerEdge (xw (featuresOf m c) (weightsOf m c)) (biasOf m c) (srcRow (edgesOf m c)) (dstWord (edgesOf m c)) (dinvOf (edgesOf m c))
    (fun e => dinvOf (edgesOf m c) (dstRow (edgesOf m c) e))

namespace Result

theorem features_at (i : Fin 50000) (q : Fin 256) :
    (outs m 4 main_v21 c : S50000x256.Idx → EReal) (ix2 i q)
      = xw (featuresOf m c) (weightsOf m c) i q * dinvOf (edgesOf m c) i := by
  rw [outs_features, scaled_features_value]
  unfold E0
  rw [entry_features, entry_weights, scale_value]

-- The scaled rows summed at their destinations, times the destination's scale, plus the bias: the layer's output.
theorem layer_of_arrays (V : (c : Dev nD) → (b : Ref sig .tc) → Buf (Elt Ideal) ((c : Thread nD τ).loc b))
    (h33 : V c main_v33 = Gen.V5 m (outs m) c main_v33) (h20 : V c main_v20 = Gen.V5 m (outs m) c main_v20)
    (h34 : V c main_v34 = Gen.V5 m (outs m) c main_v34) : layerOut V c = layerOf m c := by
  funext n q
  unfold layerOut statsAgg statsScale statsBias
  rw [h33, h20, h34, arrived_value, scale_kept, scale_value, bias_value]
  simp only [features_at]
  rfl

theorem layer_at : layerOut (E1 m) c = layerOf m c :=
  layer_of_arrays m c (E1 m) rfl rfl rfl

theorem poolLayer_at : poolLayerOut (E2 m) c = layerOf m c :=
  layer_of_arrays m c (E2 m) (kept_arrived m (outs m) c) (kept_scale m (outs m) c) (kept_bias m (outs m) c)

-- The table's sum over all nodes is the sum over the graph's nodes.
theorem pool_at (g : Fin 64) (q : Fin 256) :
    (outs m 8 main_v49 c : S64x256.Idx → EReal) (ix2 g q)
      = poolMembers (graphOf m c)
          (actOf (layerOf m c) (meanOf (layerOf m c)) (varMoments (layerOf m c)) (gammaOf m c) (betaOf m c)) g q := by
  rw [outs_pool, pool_value, poolLayer_at, ← poolTable_memberTable]
  unfold E2
  rw [funext₂ (table_value m (outs m) c), entry_mean, entry_var, outs_mean, outs_var, kept_gamma, kept_beta,
    funext (mean_value (E1 m) c), funext (var_value (E1 m) c), layer_at, funext (gamma_value m (outs m) c),
    funext (beta_value m (outs m) c)]

end Result

-- Finite features, weights and bias make the layer's output finite, which both laws on it need.
theorem result_value
    (hx : ∀ i k, ∃ r : ℝ, featuresOf m c i k = ((r : ℝ) : EReal))
    (hW : ∀ k q, ∃ r : ℝ, weightsOf m c k q = ((r : ℝ) : EReal))
    (hb : ∀ q, ∃ r : ℝ, biasOf m c q = ((r : ℝ) : EReal))
    (g : Fin 64) (k : Fin 60) :
    (outs m 10 main_v56 c : S64x60.Idx → EReal) (ix2 g k)
      = logSoftmax (logitsOf
          (meanPool (poolMembers (graphOf m c)
              (actOf (edgeLayerOf m c) (meanOf (edgeLayerOf m c)) (varCentered (edgeLayerOf m c)) (gammaOf m c) (betaOf m c)))
            (countOf (graphOf m c) oneWord) oneWord)
          (classifierOf m c) (classBiasOf m c)) g k := by
  have hf := xw_finite hx hW
  have hd := dinvOf_finite (edgesOf m c)
  have hL : edgeLayerOf m c = layerOf m c := aggPerEdge_eq_aggFactored hf hd
  rw [hL, ← varMoments_eq_varCentered _ (aggFactored_finite hf hd hb), outs_result, classify_value]
  unfold E3
  rw [entry_classifier, funext₂ (pooled_value m (outs m) c), funext₂ (Result.pool_at m c),
    funext (classbias_value m (outs m) c)]

end Cert.KernelIdeal.Hand

end
-- ==== Proof.KI.RunValue.lean ====
import proofs.«403238_j23510650978598_3_alg».proof.Proof.KI.Run
import proofs.«403238_j23510650978598_3_alg».proof.Proof.KI.RunCond

noncomputable section

namespace Cert.KernelIdeal.Hand

open Cert.KernelIdeal Cert.KernelIdeal.Gen
open Idealize.ShloMosaic Idealize.ShloMosaic.TcCoe
open Idealize.SL Idealize.SL.BI Idealize.SL.Sem

variable {F : FTy → Type} [FloatOps F]

variable (m : (ℓ : Loc nD τ sig) → Buf (Elt F) ℓ) (ρ : Dev nD → PrngReg)

-- The frame's run with one reading more: the result array ends at what the last region leaves in it.
theorem run : θ_run defs (onTc (τ := τ) (main (F := F))) ⟨m, fun _ => 0, ρ⟩ (fun r => ∀ c : Dev nD,
      r.2.mem ((c.tc : Thread nD τ).loc main_v56) = outs m 10 main_v56 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.run_cond m emb₁ () Variants.none pairs levels (fun _ _ => rfl) ρ (outs m) (pdats m) (O₀ := 0) (G := fun _ => iprop(emp))
    (u₀ := _) (hu₀ := launch_elem) (E := fun _ => beside) (hE0 := launch_beside ρ) (hE4 := beside_owes)
    (region0 m) (fun _ => .rfl) (fun _ => .rfl) (region1 m) (fun _ => .rfl) (fun _ => .rfl)
    (region2 m) (fun _ => .rfl) (fun _ => .rfl) (region3 m) (fun _ => .rfl) (fun _ => .rfl)

end Cert.KernelIdeal.Hand

end
-- ==== Proof.RefRun.lean ====
import proofs.«403238_j23510650978598_3_alg».proof.Proof.Gen.ReferenceIdeal
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev edgeWords : List (HloOp τ sig (Elt F)) :=
  [ StableHlo.nullary main_v0 (iotaInDim S50000 32 0),
    StableHlo.unary main_arg1 main_v1 (extractStridedSlice S1x800000 ![0, 0] · slices_S2x800000_S1x800000_0_0),
    StableHlo.reshape main_v1 main_v2 rfl shapeCasts_S1x800000_S800000,
    StableHlo.binary main_v2 main_v0 main_v3 (fun a b => concatenate S850000 0 [⟨S800000, a⟩, ⟨S50000, b⟩] concatenates_S800000_S50000_S850000_d0),
    StableHlo.unary main_arg1 main_v4 (extractStridedSlice S1x800000 ![1, 0] · slices_S2x800000_S1x800000_1_0),
    StableHlo.reshape main_v4 main_v5 rfl shapeCasts_S1x800000_S800000,
    StableHlo.binary main_v5 main_v0 main_v6 (fun a b => concatenate S850000 0 [⟨S800000, a⟩, ⟨S50000, b⟩] concatenates_S800000_S50000_S850000_d0) ]

abbrev degreeOps : List (HloOp τ sig (Elt F)) :=
  [ StableHlo.nullary main_cst (constant S_ .f32 0x00000000#32),
    StableHlo.unary main_cst main_v7 (broadcastInDim S50000 ![] bcast_S_S50000),
    StableHlo.nullary main_c (constantI S_ 32 0#32),
    StableHlo.unary main_c main_v8 (broadcastInDim S850000 ![] bcast_S_S850000),
    StableHlo.binary main_v6 main_v8 main_v9 (cmpi .slt),
    StableHlo.nullary main_c_0 (constantI S_ 32 50000#32),
    StableHlo.unary main_c_0 main_v10 (broadcastInDim S850000 ![] bcast_S_S850000),
    StableHlo.binary main_v6 main_v10 main_v11 addi,
    StableHlo.ternary main_v9 main_v11 main_v6 main_v12 select,
    StableHlo.unary main_v12 main_v13 (broadcastInDim S850000x1 ![0] bcast_S850000_S850000x1_0),
    StableHlo.nullary main_cst_1 (constant S_ .f32 0x3F800000#32),
    StableHlo.unary main_cst_1 main_v14 (broadcastInDim S850000 ![] bcast_S_S850000),
    StableHlo.ternary main_v7 main_v13 main_v14 main_v15 (fun x i u => Host.scatterAdd scatter_S50000_S850000x1_S850000_n_0_0_1 x i u) ]

abbrev scaleOps : List (HloOp τ sig (Elt F)) :=
  [ StableHlo.nullary main_cst_2 (constant S_ .f32 0x00000000#32),
    StableHlo.unary main_cst_2 main_v16 (broadcastInDim S50000 ![] bcast_S_S50000),
    StableHlo.binary main_v15 main_v16 main_v17 (cmpf .ogt),
    StableHlo.unary main_v15 main_v18 Host.rsqrt,
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v17 : StableHlo.TRef sig ⟨S50000, .i1⟩) (.of main_v18 : StableHlo.TRef sig ⟨S50000, .f32⟩) main_call0.v1 main_call0.v2 select ]

abbrev srcScaleOps : List (HloOp τ sig (Elt F)) :=
  [ StableHlo.nullary main_c_4 (constantI S_ 32 0#32),
    StableHlo.unary main_c_4 main_v20 (broadcastInDim S850000 ![] bcast_S_S850000),
    StableHlo.binary main_v3 main_v20 main_v21 (cmpi .slt),
    StableHlo.nullary main_c_5 (constantI S_ 32 50000#32),
    StableHlo.unary main_c_5 main_v22 (broadcastInDim S850000 ![] bcast_S_S850000),
    StableHlo.binary main_v3 main_v22 main_v23 addi,
    StableHlo.ternary main_v21 main_v23 main_v3 main_v24 select,
    StableHlo.unary main_v24 main_v25 (broadcastInDim S850000x1 ![0] bcast_S850000_S850000x1_0),
    StableHlo.binary main_v19 main_v25 main_v26 (fun x i => Host.gather gather_S50000_S850000x1_S850000_n_0_n_n_0_1_1 x i) ]

abbrev edgeScaleOps : List (HloOp τ sig (Elt F)) :=
  [ StableHlo.nullary main_c_6 (constantI S_ 32 0#32),
    StableHlo.unary main_c_6 main_v27 (broadcastInDim S850000 ![] bcast_S_S850000),
    StableHlo.binary main_v6 main_v27 main_v28 (cmpi .slt),
    StableHlo.nullary main_c_7 (constantI S_ 32 50000#32),
    StableHlo.unary main_c_7 main_v29 (broadcastInDim S850000 ![] bcast_S_S850000),
    StableHlo.binary main_v6 main_v29 main_v30 addi,
    StableHlo.ternary main_v28 main_v30 main_v6 main_v31 select,
    StableHlo.unary main_v31 main_v32 (broadcastInDim S850000x1 ![0] bcast_S850000_S850000x1_0),
    StableHlo.binary main_v19 main_v32 main_v33 (fun x i => Host.gather gather_S50000_S850000x1_S850000_n_0_n_n_0_1_1 x i),
    StableHlo.binary main_v26 main_v33 main_v34 mulf ]

abbrev messageOps : List (HloOp τ sig (Elt F)) :=
  [ StableHlo.binary main_arg0 main_arg3 main_v35 (fun l r => Host.dotGeneral dot_S50000x256_S256x256_S50000x256_1_0_0_1_n_n none l r),
    StableHlo.nullary main_c_8 (constantI S_ 32 0#32),
    StableHlo.unary main_c_8 main_v36 (broadcastInDim S850000 ![] bcast_S_S850000),
    StableHlo.binary main_v3 main_v36 main_v37 (cmpi .slt),
    StableHlo.nullary main_c_9 (constantI S_ 32 50000#32),
    StableHlo.unary main_c_9 main_v38 (broadcastInDim S850000 ![] bcast_S_S850000),
    StableHlo.binary main_v3 main_v38 main_v39 addi,
    StableHlo.ternary main_v37 main_v39 main_v3 main_v40 select,
    StableHlo.unary main_v40 main_v41 (broadcastInDim S850000x1 ![0] bcast_S850000_S850000x1_0),
    StableHlo.binary main_v35 main_v41 main_v42 (fun x i => Host.gather gather_S50000x256_S850000x1_S850000x256_1_0_n_n_0_1_1256 x i),
    StableHlo.unary main_v34 main_v43 (broadcastInDim S850000x1 ![0] bcast_S850000_S850000x1_0),
    StableHlo.unary main_v43 main_v44 (broadcastInDim S850000x256 ![0, 1] bcast_S850000x1_S850000x256_0_1),
    StableHlo.binary main_v42 main_v44 main_v45 mulf ]

abbrev sumOps : List (HloOp τ sig (Elt F)) :=
  [ StableHlo.nullary main_cst_10 (constant S_ .f32 0x00000000#32),
    StableHlo.unary main_cst_10 main_v46 (broadcastInDim S50000x256 ![] bcast_S_S50000x256),
    StableHlo.unary main_v6 main_v47 (broadcastInDim S850000x1 ![0] bcast_S850000_S850000x1_0),
    StableHlo.ternary main_v46 main_v47 main_v45 main_v48 (fun x i u => Host.scatterAdd scatter_S50000x256_S850000x1_S850000x256_1_0_0_1 x i u),
    StableHlo.unary main_arg4 main_v49 (broadcastInDim S1x256 ![1] bcast_S256_S1x256_1),
    StableHlo.unary main_v49 main_v50 (broadcastInDim S50000x256 ![0, 1] bcast_S1x256_S50000x256_0_1),
    StableHlo.binary main_v48 main_v50 main_v51 addf ]

abbrev meanOps : List (HloOp τ sig (Elt F)) :=
  [ StableHlo.nullary main_cst_11 (constant S_ .f32 0x00000000#32),
    StableHlo.binary main_v51 main_cst_11 main_v52 (fun x v => Host.reduceAdd x v reducesTo_S50000x256_S256_d0 h_S_),
    StableHlo.nullary main_cst_12 (constant S_ .f32 0x47435000#32),
    StableHlo.unary main_cst_12 main_v53 (broadcastInDim S256 ![] bcast_S_S256),
    StableHlo.binary main_v52 main_v53 main_v54 Host.divf ]

abbrev varianceOps : List (HloOp τ sig (Elt F)) :=
  [ StableHlo.nullary main_c_13 (constantI S_ 32 0#32),
    StableHlo.TRef.nullary main_call1.cst (constant S_ .f32 0x00000000#32),
    StableHlo.TRef.binary (.of main_v51 : StableHlo.TRef sig ⟨S50000x256, .f32⟩) main_call1.cst main_call1.v0 (fun x v => Host.reduceAdd x v reducesTo_S50000x256_S256_d0 h_S_),
    StableHlo.TRef.unary main_call1.v0 main_call1.v1 (broadcastInDim S1x256 ![1] bcast_S256_S1x256_1),
    StableHlo.TRef.nullary main_call1.cst_0 (constant S_ .f32 0x47435000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S50000x256 ![0, 1] bcast_S1x256_S50000x256_0_1),
    StableHlo.TRef.binary (.of main_v51 : StableHlo.TRef sig ⟨S50000x256, .f32⟩) main_call1.v4 main_call1.v5 subf,
    StableHlo.TRef.binary main_call1.v5 main_call1.v5 main_call1.v6 mulf,
    StableHlo.TRef.unary (.of main_c_13 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b) ]

abbrev normOps : List (HloOp τ sig (Elt F)) :=
  [ StableHlo.unary main_v54 main_v56 (broadcastInDim S1x256 ![1] bcast_S256_S1x256_1),
    StableHlo.unary main_v56 main_v57 (broadcastInDim S50000x256 ![0, 1] bcast_S1x256_S50000x256_0_1),
    StableHlo.binary main_v51 main_v57 main_v58 subf,
    StableHlo.unary main_arg5 main_v59 (broadcastInDim S1x256 ![1] bcast_S256_S1x256_1),
    StableHlo.unary main_v59 main_v60 (broadcastInDim S50000x256 ![0, 1] bcast_S1x256_S50000x256_0_1),
    StableHlo.binary main_v60 main_v58 main_v61 mulf,
    StableHlo.nullary main_cst_14 (constant S_ .f32 0x3727C5AC#32),
    StableHlo.unary main_cst_14 main_v62 (broadcastInDim S256 ![] bcast_S_S256),
    StableHlo.binary main_v55 main_v62 main_v63 addf,
    StableHlo.unary main_v63 main_v64 Host.rsqrt,
    StableHlo.unary main_v64 main_v65 (broadcastInDim S1x256 ![1] bcast_S256_S1x256_1),
    StableHlo.unary main_v65 main_v66 (broadcastInDim S50000x256 ![0, 1] bcast_S1x256_S50000x256_0_1),
    StableHlo.binary main_v61 main_v66 main_v67 mulf,
    StableHlo.unary main_arg6 main_v68 (broadcastInDim S1x256 ![1] bcast_S256_S1x256_1),
    StableHlo.unary main_v68 main_v69 (broadcastInDim S50000x256 ![0, 1] bcast_S1x256_S50000x256_0_1),
    StableHlo.binary main_v67 main_v69 main_v70 addf ]

abbrev poolOps : List (HloOp τ sig (Elt F)) :=
  [ StableHlo.TRef.nullary main_call2.cst (constant S_ .f32 0x00000000#32),
    StableHlo.TRef.unary main_call2.cst main_call2.v0 (broadcastInDim S50000x256 ![] bcast_S_S50000x256),
    StableHlo.TRef.binary (.of main_v70 : StableHlo.TRef sig ⟨S50000x256, .f32⟩) main_call2.v0 main_call2.v1 maximumf,
    StableHlo.nullary main_cst_15 (constant S_ .f32 0x00000000#32),
    StableHlo.unary main_cst_15 main_v72 (broadcastInDim S64x256 ![] bcast_S_S64x256),
    StableHlo.unary main_arg2 main_v73 (broadcastInDim S50000x1 ![0] bcast_S50000_S50000x1_0),
    StableHlo.ternary main_v72 main_v73 main_v71 main_v74 (fun x i u => Host.scatterAdd scatter_S64x256_S50000x1_S50000x256_1_0_0_1 x i u) ]

abbrev countOps : List (HloOp τ sig (Elt F)) :=
  [ StableHlo.nullary main_cst_16 (constant S_ .f32 0x3F800000#32),
    StableHlo.unary main_cst_16 main_v75 (broadcastInDim S50000 ![] bcast_S_S50000),
    StableHlo.nullary main_cst_17 (constant S_ .f32 0x00000000#32),
    StableHlo.unary main_cst_17 main_v76 (broadcastInDim S64 ![] bcast_S_S64),
    StableHlo.unary main_arg2 main_v77 (broadcastInDim S50000x1 ![0] bcast_S50000_S50000x1_0),
    StableHlo.ternary main_v76 main_v77 main_v75 main_v78 (fun x i u => Host.scatterAdd scatter_S64_S50000x1_S50000_n_0_0_1 x i u),
    StableHlo.nullary main_cst_18 (constant S_ .f32 0x3F800000#32),
    StableHlo.unary main_cst_18 main_v79 (broadcastInDim S64 ![] bcast_S_S64),
    StableHlo.binary main_v78 main_v79 main_v80 maximumf,
    StableHlo.unary main_v80 main_v81 (broadcastInDim S64x1 ![0] bcast_S64_S64x1_0),
    StableHlo.unary main_v81 main_v82 (broadcastInDim S64x256 ![0, 1] bcast_S64x1_S64x256_0_1),
    StableHlo.binary main_v74 main_v82 main_v83 Host.divf ]

abbrev scoreOps : List (HloOp τ sig (Elt F)) :=
  [ StableHlo.unary main_arg7 main_v84 (transpose S256x60 [1, 0] · transposes_S60x256_S256x60_1_0),
    StableHlo.binary main_v83 main_v84 main_v85 (fun l r => Host.dotGeneral dot_S64x256_S256x60_S64x60_1_0_0_1_n_n none l r),
    StableHlo.unary main_arg8 main_v86 (broadcastInDim S1x60 ![1] bcast_S60_S1x60_1),
    StableHlo.unary main_v86 main_v87 (broadcastInDim S64x60 ![0, 1] bcast_S1x60_S64x60_0_1),
    StableHlo.binary main_v85 main_v87 main_v88 addf ]

abbrev softmaxOps : List (HloOp τ sig (Elt F)) :=
  [ StableHlo.TRef.nullary main_call3.cst (constant S_ .f32 0xFF800000#32),
    StableHlo.TRef.binary (.of main_v88 : StableHlo.TRef sig ⟨S64x60, .f32⟩) main_call3.cst main_call3.v0 (fun x v => Host.reduce FloatOps.maximumf x v reducesTo_S64x60_S64_d1 h_S_),
    StableHlo.TRef.nullary main_call3.cst_0 (constant S_ .f32 0xFF800000#32),
    StableHlo.TRef.unary main_call3.cst_0 main_call3.v1 (broadcastInDim S64 ![] bcast_S_S64),
    StableHlo.TRef.binary main_call3.v1 main_call3.v0 main_call3.v2 maximumf,
    StableHlo.TRef.unary main_call3.v2 main_call3.v3 (broadcastInDim S64x1 ![0] bcast_S64_S64x1_0),
    StableHlo.TRef.unary main_call3.v3 main_call3.v4 (broadcastInDim S64x60 ![0, 1] bcast_S64x1_S64x60_0_1),
    StableHlo.TRef.binary (.of main_v88 : StableHlo.TRef sig ⟨S64x60, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S64x60_S64_d1 h_S_),
    StableHlo.TRef.unary main_call3.v7 main_call3.v8 (broadcastInDim S64x1 ![0] bcast_S64_S64x1_0),
    StableHlo.TRef.unary main_call3.v8 main_call3.v9 Host.log,
    StableHlo.TRef.unary main_call3.v9 main_call3.v10 (broadcastInDim S64x60 ![0, 1] bcast_S64x1_S64x60_0_1),
    StableHlo.TRef.binary main_call3.v5 main_call3.v10 main_call3.v11 subf ]

abbrev opsLayer : List (HloOp τ sig (Elt F)) :=
  edgeWords ++ (degreeOps ++ (scaleOps ++ (srcScaleOps ++ (edgeScaleOps ++ (messageOps ++ sumOps)))))

abbrev opsHead : List (HloOp τ sig (Elt F)) :=
  meanOps ++ (varianceOps ++ (normOps ++ (poolOps ++ (countOps ++ (scoreOps ++ softmaxOps)))))

abbrev ops : List (HloOp τ sig (Elt F)) := opsLayer ++ opsHead

theorem after_ops (V : Valuation τ sig (Elt F)) : after ops V = after opsHead (after opsLayer V) :=
  after_append ..

/-- With the list flattened and the called functions inlined, the two programs agree step for step. -/
theorem main_eq (c : Dev nD) : main (F := F) c = seq ops := by
  dsimp only [ops, opsLayer, opsHead, edgeWords, degreeOps, scaleOps, srcScaleOps, edgeScaleOps, messageOps, sumOps, meanOps, varianceOps, normOps, poolOps,
    countOps, scoreOps, softmaxOps, List.cons_append, List.nil_append]
  simp only [main, main_part0, main_part1, fn_where.body, fn_where_0.body, fn_var.body, fn_relu.body, fn_log_softmax.body, seq,
    bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsLayer, opsHead, List.forall_append, List.Forall, nullary_bufs_sub, unary_bufs_sub, binary_bufs_sub,
    ternary_bufs_sub, reshape_bufs_sub, and_self]

theorem ops_fresh : (ops : List (HloOp τ sig (Elt F))).Forall fun op => op.fresh = ∅ := by
  simp only [ops, opsLayer, opsHead, List.forall_append, List.Forall]; repeat' constructor

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    fun _ => List.forall_iff_forall_mem.1 ops_fresh

abbrev args : List (Ref sig .tc) :=
  [main_arg0, main_arg1, main_arg2, main_arg3, main_arg4, main_arg5, main_arg6, main_arg7, main_arg8]

/-- An argument is never a result, so every fold leaves it as it was. -/
theorem layer_arg (V : Valuation τ sig (Elt F)) (r : Ref sig .tc) (h : r ∈ args := by decide) :
    after opsLayer V (r : DevRef τ sig) = V (r : DevRef τ sig) := by
  simp only [args, List.mem_cons, List.not_mem_nil, or_false] at h
  simp only [opsLayer, after_append]
  rcases h with rfl | rfl | rfl | rfl | rfl | rfl | rfl | rfl | rfl <;> after_results_simp

theorem head_arg (V : Valuation τ sig (Elt F)) (r : Ref sig .tc) (h : r ∈ args := by decide) :
    after opsHead V (r : DevRef τ sig) = V (r : DevRef τ sig) := by
  simp only [args, List.mem_cons, List.not_mem_nil, or_false] at h
  simp only [opsHead, after_append]
  rcases h with rfl | rfl | rfl | rfl | rfl | rfl | rfl | rfl | rfl <;> after_results_simp

theorem arg_eq (V : Valuation τ sig (Elt F)) (r : Ref sig .tc) (h : r ∈ args := by decide) :
    after ops V (r : DevRef τ sig) = V (r : DevRef τ sig) := by
  rw [after_ops, head_arg _ r h, layer_arg V r h]

end Cert.ReferenceIdeal.Hand

end
-- ==== Proof.RefAggDef.lean ====
import proofs.«403238_j23510650978598_3_alg».proof.Proof.Gen.ReferenceIdeal
import Idealize.ShloMosaic.PureOps.Ideal

noncomputable section

namespace Cert.ReferenceIdeal.Hand

open Cert.ReferenceIdeal Idealize.ShloMosaic
open Cert.ReferenceIdeal.Facts₀

def loopWords : IVec S50000 32 := iotaInDim S50000 32 0

def srcWords (ei : IVec S2x800000 32) : IVec S850000 32 :=
  concatenate S850000 0
    [⟨S800000,
        shapeCast S800000 (extractStridedSlice S1x800000 ![0, 0] ei slices_S2x800000_S1x800000_0_0)
          shapeCasts_S1x800000_S800000⟩,
      ⟨S50000, loopWords⟩] concatenates_S800000_S50000_S850000_d0

def dstWords (ei : IVec S2x800000 32) : IVec S850000 32 :=
  concatenate S850000 0
    [⟨S800000,
        shapeCast S800000 (extractStridedSlice S1x800000 ![1, 0] ei slices_S2x800000_S1x800000_1_0)
          shapeCasts_S1x800000_S800000⟩,
      ⟨S50000, loopWords⟩] concatenates_S800000_S50000_S850000_d0

def wrapWords (w : IVec S850000 32) : IVec S850000 32 :=
  select (cmpi .slt w (broadcastInDim S850000 ![] bcast_S_S850000 (constantI S_ 32 0#32)))
    (addi w (broadcastInDim S850000 ![] bcast_S_S850000 (constantI S_ 32 50000#32))) w

def asColumn (w : IVec S850000 32) : IVec S850000x1 32 :=
  broadcastInDim S850000x1 ![0] bcast_S850000_S850000x1_0 w

def degrees (ei : IVec S2x800000 32) : FVec Ideal S50000 .f32 :=
  Host.scatterAdd scatter_S50000_S850000x1_S850000_n_0_0_1
    (broadcastInDim S50000 ![] bcast_S_S50000 (constant (F := Ideal) S_ .f32 0x00000000#32))
    (asColumn (wrapWords (dstWords ei)))
    (broadcastInDim S850000 ![] bcast_S_S850000 (constant (F := Ideal) S_ .f32 0x3F800000#32))

def degScales (ei : IVec S2x800000 32) : FVec Ideal S50000 .f32 :=
  select
    (cmpf .ogt (degrees ei) (broadcastInDim S50000 ![] bcast_S_S50000 (constant (F := Ideal) S_ .f32 0x00000000#32)))
    (Host.rsqrt (degrees ei))
    (broadcastInDim S50000 ![] bcast_S_S50000 (id (constant (F := Ideal) S_ .f32 0x00000000#32)))

def edgeScales (ei : IVec S2x800000 32) : FVec Ideal S850000 .f32 :=
  mulf
    (Host.gather gather_S50000_S850000x1_S850000_n_0_n_n_0_1_1 (degScales ei) (asColumn (wrapWords (srcWords ei))))
    (Host.gather gather_S50000_S850000x1_S850000_n_0_n_n_0_1_1 (degScales ei) (asColumn (wrapWords (dstWords ei))))

def messages (x : FVec Ideal S50000x256 .f32) (ei : IVec S2x800000 32) (W : FVec Ideal S256x256 .f32) :
    FVec Ideal S850000x256 .f32 :=
  mulf
    (Host.gather gather_S50000x256_S850000x1_S850000x256_1_0_n_n_0_1_1256
      (Host.dotGeneral dot_S50000x256_S256x256_S50000x256_1_0_0_1_n_n none x W)
      (asColumn (wrapWords (srcWords ei))))
    (broadcastInDim S850000x256 ![0, 1] bcast_S850000x1_S850000x256_0_1
      (broadcastInDim S850000x1 ![0] bcast_S850000_S850000x1_0 (edgeScales ei)))

def refAgg (x : FVec Ideal S50000x256 .f32) (ei : IVec S2x800000 32) (W : FVec Ideal S256x256 .f32)
    (b : FVec Ideal S256 .f32) : FVec Ideal S50000x256 .f32 :=
  addf
    (Host.scatterAdd scatter_S50000x256_S850000x1_S850000x256_1_0_0_1
      (broadcastInDim S50000x256 ![] bcast_S_S50000x256 (constant (F := Ideal) S_ .f32 0x00000000#32))
      (asColumn (dstWords ei))
      (messages x ei W))
    (broadcastInDim S50000x256 ![0, 1] bcast_S1x256_S50000x256_0_1
      (broadcastInDim S1x256 ![1] bcast_S256_S1x256_1 b))

end Cert.ReferenceIdeal.Hand

end
-- ==== Proof.RefTailDef.lean ====
import proofs.«403238_j23510650978598_3_alg».proof.Proof.Gen.ReferenceIdeal
import Idealize.ShloMosaic.PureOps.Ideal
import Idealize.ShloMosaic.Lib.ValueIdx

noncomputable section

namespace Cert.ReferenceIdeal.Hand

open Cert.ReferenceIdeal Cert.ReferenceIdeal.Gen Idealize.ShloMosaic Idealize.ShloMosaic.ValueIdx

def tailMean (agg : FVec Ideal S50000x256 .f32) : FVec Ideal S256 .f32 :=
  Host.divf (Host.reduceAdd agg (constant (F := Ideal) S_ .f32 0x00000000#32) reducesTo_S50000x256_S256_d0 h_S_)
    (broadcastInDim S256 ![] bcast_S_S256 (constant (F := Ideal) S_ .f32 0x47435000#32))

def tailDev (agg : FVec Ideal S50000x256 .f32) : FVec Ideal S50000x256 .f32 :=
  subf agg (broadcastInDim S50000x256 ![0, 1] bcast_S1x256_S50000x256_0_1
    (Host.divf
      (broadcastInDim S1x256 ![1] bcast_S256_S1x256_1
        (Host.reduceAdd agg (constant (F := Ideal) S_ .f32 0x00000000#32) reducesTo_S50000x256_S256_d0 h_S_))
      (broadcastInDim S1x256 ![] bcast_S_S1x256 (constant (F := Ideal) S_ .f32 0x47435000#32))))

def tailDivisor : FVec Ideal S_ .f32 :=
  subf (constant (F := Ideal) S_ .f32 0x47435000#32) (sitofp (F := Ideal) .f32 (constantI S_ 32 0#32))

def tailVar (agg : FVec Ideal S50000x256 .f32) : FVec Ideal S256 .f32 :=
  (fun p a b => select (broadcastInDim S256 ![] bcast_S_S256 p) a b)
    (cmpf .ogt tailDivisor (constant (F := Ideal) S_ .f32 0x00000000#32))
    (Host.divf
      (Host.reduceAdd (mulf (tailDev agg) (tailDev agg)) (constant (F := Ideal) S_ .f32 0x00000000#32)
        reducesTo_S50000x256_S256_d0 h_S_)
      (broadcastInDim S256 ![] bcast_S_S256 tailDivisor))
    (broadcastInDim S256 ![] bcast_S_S256 (id (constant (F := Ideal) S_ .f32 0x7FC00000#32)))

def tailNorm (agg : FVec Ideal S50000x256 .f32) (ga be : FVec Ideal S256 .f32) : FVec Ideal S50000x256 .f32 :=
  addf
    (mulf
      (mulf
        (broadcastInDim S50000x256 ![0, 1] bcast_S1x256_S50000x256_0_1 (broadcastInDim S1x256 ![1] bcast_S256_S1x256_1 ga))
        (subf agg (broadcastInDim S50000x256 ![0, 1] bcast_S1x256_S50000x256_0_1
          (broadcastInDim S1x256 ![1] bcast_S256_S1x256_1 (tailMean agg)))))
      (broadcastInDim S50000x256 ![0, 1] bcast_S1x256_S50000x256_0_1
        (broadcastInDim S1x256 ![1] bcast_S256_S1x256_1
          (Host.rsqrt (addf (tailVar agg)
            (broadcastInDim S256 ![] bcast_S_S256 (constant (F := Ideal) S_ .f32 0x3727C5AC#32)))))))
    (broadcastInDim S50000x256 ![0, 1] bcast_S1x256_S50000x256_0_1 (broadcastInDim S1x256 ![1] bcast_S256_S1x256_1 be))

def tailAct (agg : FVec Ideal S50000x256 .f32) (ga be : FVec Ideal S256 .f32) : FVec Ideal S50000x256 .f32 :=
  maximumf (tailNorm agg ga be)
    (broadcastInDim S50000x256 ![] bcast_S_S50000x256 (constant (F := Ideal) S_ .f32 0x00000000#32))

def tailSums (agg : FVec Ideal S50000x256 .f32) (bt : IVec S50000 32) (ga be : FVec Ideal S256 .f32) :
    FVec Ideal S64x256 .f32 :=
  Host.scatterAdd scatter_S64x256_S50000x1_S50000x256_1_0_0_1
    (broadcastInDim S64x256 ![] bcast_S_S64x256 (constant (F := Ideal) S_ .f32 0x00000000#32))
    (broadcastInDim S50000x1 ![0] bcast_S50000_S50000x1_0 bt)
    (tailAct agg ga be)

def tailCounts (bt : IVec S50000 32) : FVec Ideal S64 .f32 :=
  maximumf
    (Host.scatterAdd scatter_S64_S50000x1_S50000_n_0_0_1
      (broadcastInDim S64 ![] bcast_S_S64 (constant (F := Ideal) S_ .f32 0x00000000#32))
      (broadcastInDim S50000x1 ![0] bcast_S50000_S50000x1_0 bt)
      (broadcastInDim S50000 ![] bcast_S_S50000 (constant (F := Ideal) S_ .f32 0x3F800000#32)))
    (broadcastInDim S64 ![] bcast_S_S64 (constant (F := Ideal) S_ .f32 0x3F800000#32))

def tailLogits (agg : FVec Ideal S50000x256 .f32) (bt : IVec S50000 32) (ga be : FVec Ideal S256 .f32)
    (Wf : FVec Ideal S60x256 .f32) (bf : FVec Ideal S60 .f32) : FVec Ideal S64x60 .f32 :=
  addf
    (Host.dotGeneral dot_S64x256_S256x60_S64x60_1_0_0_1_n_n none
      (Host.divf (tailSums agg bt ga be)
        (broadcastInDim S64x256 ![0, 1] bcast_S64x1_S64x256_0_1
          (broadcastInDim S64x1 ![0] bcast_S64_S64x1_0 (tailCounts bt))))
      (transpose S256x60 [1, 0] Wf transposes_S60x256_S256x60_1_0))
    (broadcastInDim S64x60 ![0, 1] bcast_S1x60_S64x60_0_1 (broadcastInDim S1x60 ![1] bcast_S60_S1x60_1 bf))

def tailShifted (l : FVec Ideal S64x60 .f32) : FVec Ideal S64x60 .f32 :=
  subf l (broadcastInDim S64x60 ![0, 1] bcast_S64x1_S64x60_0_1
    (broadcastInDim S64x1 ![0] bcast_S64_S64x1_0
      (maximumf
        (broadcastInDim S64 ![] bcast_S_S64 (constant (F := Ideal) S_ .f32 0xFF800000#32))
        (Host.reduce FloatOps.maximumf l (constant (F := Ideal) S_ .f32 0xFF800000#32) reducesTo_S64x60_S64_d1 h_S_))))

def tailLogSoftmax (l : FVec Ideal S64x60 .f32) : FVec Ideal S64x60 .f32 :=
  subf (tailShifted l)
    (broadcastInDim S64x60 ![0, 1] bcast_S64x1_S64x60_0_1
      (Host.log (broadcastInDim S64x1 ![0] bcast_S64_S64x1_0
        (Host.reduceAdd (Host.exp (tailShifted l)) (constant (F := Ideal) S_ .f32 0x00000000#32)
          reducesTo_S64x60_S64_d1 h_S_))))

def refTail (agg : FVec Ideal S50000x256 .f32) (bt : IVec S50000 32) (ga be : FVec Ideal S256 .f32)
    (Wf : FVec Ideal S60x256 .f32) (bf : FVec Ideal S60 .f32) : FVec Ideal S64x60 .f32 :=
  tailLogSoftmax (tailLogits agg bt ga be Wf bf)

end Cert.ReferenceIdeal.Hand

end
-- ==== Proof.RefOut.lean ====
import proofs.«403238_j23510650978598_3_alg».proof.Proof.RefRun
import proofs.«403238_j23510650978598_3_alg».proof.Proof.RefAggDef
import proofs.«403238_j23510650978598_3_alg».proof.Proof.RefTailDef

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.reduceAdd Host.reduce concatenate

/-- Each stretch taken alone: what it produces is a fixed term of the buffers it reads. -/
theorem edgeWords_main_v6 (W : Valuation τ sig (Elt Ideal)) :
    after edgeWords W (main_v6 : DevRef τ sig)
      = dstWords (W (main_arg1 : DevRef τ sig)) := by
  after_results
  rfl

theorem degreeOps_main_v15 (W : Valuation τ sig (Elt Ideal)) :
    after degreeOps W (main_v15 : DevRef τ sig)
      = Host.scatterAdd scatter_S50000_S850000x1_S850000_n_0_0_1
        (broadcastInDim S50000 ![] bcast_S_S50000 (constant (F := Ideal) S_ .f32 0x00000000#32))
        (asColumn (wrapWords (W (main_v6 : DevRef τ sig))))
        (broadcastInDim S850000 ![] bcast_S_S850000 (constant (F := Ideal) S_ .f32 0x3F800000#32)) := by
  after_results_simp <;> rfl

theorem scaleOps_main_v19 (W : Valuation τ sig (Elt Ideal)) :
    after scaleOps W (main_v19 : DevRef τ sig)
      = select
        (cmpf .ogt (W (main_v15 : DevRef τ sig)) (broadcastInDim S50000 ![] bcast_S_S50000 (constant (F := Ideal) S_ .f32 0x00000000#32)))
        (Host.rsqrt (W (main_v15 : DevRef τ sig)))
        (broadcastInDim S50000 ![] bcast_S_S50000 (id (constant (F := Ideal) S_ .f32 0x00000000#32))) := by
  after_results_simp <;> rfl

theorem srcScaleOps_main_v26 (W : Valuation τ sig (Elt Ideal)) :
    after srcScaleOps W (main_v26 : DevRef τ sig)
      = Host.gather gather_S50000_S850000x1_S850000_n_0_n_n_0_1_1 (W (main_v19 : DevRef τ sig))
        (asColumn (wrapWords (W (main_v3 : DevRef τ sig)))) := by
  after_results_simp <;> rfl

/-- The degree scales are read once more by the next stretch, so they must outlive this one. -/
theorem srcScaleOps_main_v19 (W : Valuation τ sig (Elt F)) :
    after srcScaleOps W (main_v19 : DevRef τ sig) = W (main_v19 : DevRef τ sig) := by after_results_simp

theorem edgeScaleOps_main_v34 (W : Valuation τ sig (Elt Ideal)) :
    after edgeScaleOps W (main_v34 : DevRef τ sig)
      = (mulf (W (main_v26 : DevRef τ sig))
          (Host.gather gather_S50000_S850000x1_S850000_n_0_n_n_0_1_1 (W (main_v19 : DevRef τ sig))
            (asColumn (wrapWords (W (main_v6 : DevRef τ sig))))) : FVec Ideal S850000 .f32) := by
  after_results_simp <;> rfl

theorem messageOps_main_v45 (W : Valuation τ sig (Elt Ideal)) :
    after messageOps W (main_v45 : DevRef τ sig)
      = (mulf
        (Host.gather gather_S50000x256_S850000x1_S850000x256_1_0_n_n_0_1_1256
          (Host.dotGeneral (φ₁ := .f32) (φ₂ := .f32) dot_S50000x256_S256x256_S50000x256_1_0_0_1_n_n none
            (W (main_arg0 : DevRef τ sig)) (W (main_arg3 : DevRef τ sig)))
          (asColumn (wrapWords (W (main_v3 : DevRef τ sig)))))
        (broadcastInDim S850000x256 ![0, 1] bcast_S850000x1_S850000x256_0_1
          (broadcastInDim S850000x1 ![0] bcast_S850000_S850000x1_0 (W (main_v34 : DevRef τ sig)))) : FVec Ideal S850000x256 .f32) := by
  after_results_simp <;> rfl

theorem sumOps_main_v51 (W : Valuation τ sig (Elt Ideal)) :
    after sumOps W (main_v51 : DevRef τ sig)
      = addf
        (Host.scatterAdd scatter_S50000x256_S850000x1_S850000x256_1_0_0_1
          (broadcastInDim S50000x256 ![] bcast_S_S50000x256 (constant (F := Ideal) S_ .f32 0x00000000#32))
          (asColumn (W (main_v6 : DevRef τ sig)))
          (W (main_v45 : DevRef τ sig)))
        (broadcastInDim S50000x256 ![0, 1] bcast_S1x256_S50000x256_0_1
          (broadcastInDim S1x256 ![1] bcast_S256_S1x256_1 (W (main_arg4 : DevRef τ sig)))) := by
  after_results_simp <;> rfl

/-- Composed from the launch contents, each product is a named part of the layer's term. -/
theorem chain0_main_v6 (V : Valuation τ sig (Elt Ideal)) :
    (after edgeWords V) (main_v6 : DevRef τ sig) = dstWords (V (main_arg1 : DevRef τ sig)) := by
  rw [edgeWords_main_v6] <;> rfl

theorem chain1_main_v15 (V : Valuation τ sig (Elt Ideal)) :
    (after degreeOps (after edgeWords V)) (main_v15 : DevRef τ sig) = degrees (V (main_arg1 : DevRef τ sig)) := by
  rw [degreeOps_main_v15, chain0_main_v6] <;> rfl

theorem chain2_main_v19 (V : Valuation τ sig (Elt Ideal)) :
    (after scaleOps (after degreeOps (after edgeWords V))) (main_v19 : DevRef τ sig) = degScales (V (main_arg1 : DevRef τ sig)) := by
  rw [scaleOps_main_v19, chain1_main_v15] <;> rfl

theorem chain3_main_v26 (V : Valuation τ sig (Elt Ideal)) :
    (after srcScaleOps (after scaleOps (after degreeOps (after edgeWords V)))) (main_v26 : DevRef τ sig) = Host.gather gather_S50000_S850000x1_S850000_n_0_n_n_0_1_1 (degScales (V (main_arg1 : DevRef τ sig))) (asColumn (wrapWords (srcWords (V (main_arg1 : DevRef τ sig))))) := by
  rw [srcScaleOps_main_v26, chain2_main_v19]
  after_results_simp <;> rfl

theorem chain3_main_v19 (V : Valuation τ sig (Elt Ideal)) :
    (after srcScaleOps (after scaleOps (after degreeOps (after edgeWords V)))) (main_v19 : DevRef τ sig) = degScales (V (main_arg1 : DevRef τ sig)) := by
  rw [srcScaleOps_main_v19, chain2_main_v19]

theorem chain4_main_v34 (V : Valuation τ sig (Elt Ideal)) :
    (after edgeScaleOps (after srcScaleOps (after scaleOps (after degreeOps (after edgeWords V))))) (main_v34 : DevRef τ sig) = edgeScales (V (main_arg1 : DevRef τ sig)) := by
  rw [edgeScaleOps_main_v34, chain3_main_v26, chain3_main_v19]
  after_results_simp <;> rfl

theorem chain5_main_v45 (V : Valuation τ sig (Elt Ideal)) :
    (after messageOps (after edgeScaleOps (after srcScaleOps (after scaleOps (after degreeOps (after edgeWords V)))))) (main_v45 : DevRef τ sig) = messages (V (main_arg0 : DevRef τ sig)) (V (main_arg1 : DevRef τ sig)) (V (main_arg3 : DevRef τ sig)) := by
  rw [messageOps_main_v45, chain4_main_v34]
  after_results_simp <;> rfl

theorem chain6_main_v51 (V : Valuation τ sig (Elt Ideal)) :
    (after sumOps (after messageOps (after edgeScaleOps (after srcScaleOps (after scaleOps (after degreeOps (after edgeWords V))))))) (main_v51 : DevRef τ sig) = refAgg (V (main_arg0 : DevRef τ sig)) (V (main_arg1 : DevRef τ sig)) (V (main_arg3 : DevRef τ sig)) (V (main_arg4 : DevRef τ sig)) := by
  rw [sumOps_main_v51, chain5_main_v45]
  after_results_simp <;> rfl

theorem layer_eq (V : Valuation τ sig (Elt Ideal)) :
    after opsLayer V (main_v51 : DevRef τ sig) = refAgg (V (main_arg0 : DevRef τ sig)) (V (main_arg1 : DevRef τ sig)) (V (main_arg3 : DevRef τ sig)) (V (main_arg4 : DevRef τ sig)) := by
  simp only [opsLayer, after_append]
  exact chain6_main_v51 V

theorem meanOps_main_v54 (W : Valuation τ sig (Elt Ideal)) :
    after meanOps W (main_v54 : DevRef τ sig)
      = (tailMean (W (main_v51 : DevRef τ sig)) : FVec Ideal S256 .f32) := by
  after_results_simp <;> rfl

theorem varianceOps_main_v55 (W : Valuation τ sig (Elt Ideal)) :
    after varianceOps W (main_v55 : DevRef τ sig)
      = (tailVar (W (main_v51 : DevRef τ sig)) : FVec Ideal S256 .f32) := by
  after_results_simp <;> rfl

/-- The mean is read again after the variance. -/
theorem varianceOps_main_v54 (W : Valuation τ sig (Elt F)) :
    after varianceOps W (main_v54 : DevRef τ sig) = W (main_v54 : DevRef τ sig) := by after_results_simp

theorem normOps_main_v70 (W : Valuation τ sig (Elt Ideal)) :
    after normOps W (main_v70 : DevRef τ sig)
      = (addf
        (mulf
          (mulf (broadcastInDim S50000x256 ![0, 1] bcast_S1x256_S50000x256_0_1 (broadcastInDim S1x256 ![1] bcast_S256_S1x256_1 (W (main_arg5 : DevRef τ sig))))
            (subf (W (main_v51 : DevRef τ sig)) (broadcastInDim S50000x256 ![0, 1] bcast_S1x256_S50000x256_0_1 (broadcastInDim S1x256 ![1] bcast_S256_S1x256_1 (W (main_v54 : DevRef τ sig))))))
          (broadcastInDim S50000x256 ![0, 1] bcast_S1x256_S50000x256_0_1 (broadcastInDim S1x256 ![1] bcast_S256_S1x256_1 (Host.rsqrt (addf (W (main_v55 : DevRef τ sig))
            (broadcastInDim S256 ![] bcast_S_S256 (constant (F := Ideal) S_ .f32 0x3727C5AC#32)))))))
        (broadcastInDim S50000x256 ![0, 1] bcast_S1x256_S50000x256_0_1 (broadcastInDim S1x256 ![1] bcast_S256_S1x256_1 (W (main_arg6 : DevRef τ sig)))) : FVec Ideal S50000x256 .f32) := by
  after_results_simp <;> rfl

theorem poolOps_main_v74 (W : Valuation τ sig (Elt Ideal)) :
    after poolOps W (main_v74 : DevRef τ sig)
      = (Host.scatterAdd scatter_S64x256_S50000x1_S50000x256_1_0_0_1
        (broadcastInDim S64x256 ![] bcast_S_S64x256 (constant (F := Ideal) S_ .f32 0x00000000#32))
        (broadcastInDim S50000x1 ![0] bcast_S50000_S50000x1_0 (W (main_arg2 : DevRef τ sig)))
        (maximumf (W (main_v70 : DevRef τ sig)) (broadcastInDim S50000x256 ![] bcast_S_S50000x256 (constant (F := Ideal) S_ .f32 0x00000000#32))) : FVec Ideal S64x256 .f32) := by
  after_results_simp <;> rfl

theorem countOps_main_v83 (W : Valuation τ sig (Elt Ideal)) :
    after countOps W (main_v83 : DevRef τ sig)
      = (Host.divf (W (main_v74 : DevRef τ sig))
        (broadcastInDim S64x256 ![0, 1] bcast_S64x1_S64x256_0_1
          (broadcastInDim S64x1 ![0] bcast_S64_S64x1_0 (tailCounts (W (main_arg2 : DevRef τ sig))))) : FVec Ideal S64x256 .f32) := by
  after_results_simp <;> rfl

theorem scoreOps_main_v88 (W : Valuation τ sig (Elt Ideal)) :
    after scoreOps W (main_v88 : DevRef τ sig)
      = (addf
        (Host.dotGeneral (φ₁ := .f32) (φ₂ := .f32) dot_S64x256_S256x60_S64x60_1_0_0_1_n_n none (W (main_v83 : DevRef τ sig))
          (transpose S256x60 [1, 0] (W (main_arg7 : DevRef τ sig)) transposes_S60x256_S256x60_1_0))
        (broadcastInDim S64x60 ![0, 1] bcast_S1x60_S64x60_0_1 (broadcastInDim S1x60 ![1] bcast_S60_S1x60_1 (W (main_arg8 : DevRef τ sig)))) : FVec Ideal S64x60 .f32) := by
  after_results_simp <;> rfl

theorem softmaxOps_main_v89 (W : Valuation τ sig (Elt Ideal)) :
    after softmaxOps W (main_v89 : DevRef τ sig)
      = (tailLogSoftmax (W (main_v88 : DevRef τ sig)) : FVec Ideal S64x60 .f32) := by
  after_results_simp <;> rfl

theorem meanOps_to_main_v54 (V : Valuation τ sig (Elt Ideal)) :
    (after meanOps V) (main_v54 : DevRef τ sig) = tailMean (V (main_v51 : DevRef τ sig)) := by
  rw [meanOps_main_v54] <;> rfl

theorem varianceOps_to_main_v55 (V : Valuation τ sig (Elt Ideal)) :
    (after varianceOps (after meanOps V)) (main_v55 : DevRef τ sig) = tailVar (V (main_v51 : DevRef τ sig)) := by
  rw [varianceOps_main_v55]
  after_results_simp <;> rfl

theorem varianceOps_to_main_v54 (V : Valuation τ sig (Elt Ideal)) :
    (after varianceOps (after meanOps V)) (main_v54 : DevRef τ sig) = tailMean (V (main_v51 : DevRef τ sig)) := by
  rw [varianceOps_main_v54, meanOps_to_main_v54]

theorem normOps_to_main_v70 (V : Valuation τ sig (Elt Ideal)) :
    (after normOps (after varianceOps (after meanOps V))) (main_v70 : DevRef τ sig) = tailNorm (V (main_v51 : DevRef τ sig)) (V (main_arg5 : DevRef τ sig)) (V (main_arg6 : DevRef τ sig)) := by
  rw [normOps_main_v70, varianceOps_to_main_v54, varianceOps_to_main_v55]
  after_results_simp <;> rfl

theorem poolOps_to_main_v74 (V : Valuation τ sig (Elt Ideal)) :
    (after poolOps (after normOps (after varianceOps (after meanOps V)))) (main_v74 : DevRef τ sig) = tailSums (V (main_v51 : DevRef τ sig)) (V (main_arg2 : DevRef τ sig)) (V (main_arg5 : DevRef τ sig)) (V (main_arg6 : DevRef τ sig)) := by
  rw [poolOps_main_v74, normOps_to_main_v70]
  after_results_simp <;> rfl

theorem countOps_to_main_v83 (V : Valuation τ sig (Elt Ideal)) :
    (after countOps (after poolOps (after normOps (after varianceOps (after meanOps V))))) (main_v83 : DevRef τ sig) = Host.divf (tailSums (V (main_v51 : DevRef τ sig)) (V (main_arg2 : DevRef τ sig)) (V (main_arg5 : DevRef τ sig)) (V (main_arg6 : DevRef τ sig)))
        (broadcastInDim S64x256 ![0, 1] bcast_S64x1_S64x256_0_1
          (broadcastInDim S64x1 ![0] bcast_S64_S64x1_0 (tailCounts (V (main_arg2 : DevRef τ sig))))) := by
  rw [countOps_main_v83, poolOps_to_main_v74]
  after_results_simp <;> rfl

theorem scoreOps_to_main_v88 (V : Valuation τ sig (Elt Ideal)) :
    (after scoreOps (after countOps (after poolOps (after normOps (after varianceOps (after meanOps V)))))) (main_v88 : DevRef τ sig) = tailLogits (V (main_v51 : DevRef τ sig)) (V (main_arg2 : DevRef τ sig)) (V (main_arg5 : DevRef τ sig)) (V (main_arg6 : DevRef τ sig)) (V (main_arg7 : DevRef τ sig)) (V (main_arg8 : DevRef τ sig)) := by
  rw [scoreOps_main_v88, countOps_to_main_v83]
  after_results_simp <;> rfl

theorem softmaxOps_to_main_v89 (V : Valuation τ sig (Elt Ideal)) :
    (after softmaxOps (after scoreOps (after countOps (after poolOps (after normOps (after varianceOps (after meanOps V))))))) (main_v89 : DevRef τ sig) = refTail (V (main_v51 : DevRef τ sig)) (V (main_arg2 : DevRef τ sig)) (V (main_arg5 : DevRef τ sig)) (V (main_arg6 : DevRef τ sig)) (V (main_arg7 : DevRef τ sig)) (V (main_arg8 : DevRef τ sig)) := by
  rw [softmaxOps_main_v89, scoreOps_to_main_v88] <;> rfl

theorem head_eq (V : Valuation τ sig (Elt Ideal)) :
    after opsHead V (main_v89 : DevRef τ sig) = refTail (V (main_v51 : DevRef τ sig)) (V (main_arg2 : DevRef τ sig)) (V (main_arg5 : DevRef τ sig)) (V (main_arg6 : DevRef τ sig)) (V (main_arg7 : DevRef τ sig)) (V (main_arg8 : DevRef τ sig)) := by
  simp only [opsHead, after_append]
  exact softmaxOps_to_main_v89 V

/-- The head reads the layer's output and five arguments the layer leaves alone. -/
theorem out_eq (V : Valuation τ sig (Elt Ideal)) :
    after ops V (main_v89 : DevRef τ sig)
      = refTail (refAgg (V (main_arg0 : DevRef τ sig)) (V (main_arg1 : DevRef τ sig)) (V (main_arg3 : DevRef τ sig)) (V (main_arg4 : DevRef τ sig)))
          (V (main_arg2 : DevRef τ sig)) (V (main_arg5 : DevRef τ sig)) (V (main_arg6 : DevRef τ sig))
          (V (main_arg7 : DevRef τ sig)) (V (main_arg8 : DevRef τ sig)) := by
  rw [after_ops, head_eq, layer_eq, layer_arg V main_arg2, layer_arg V main_arg5, layer_arg V main_arg6, layer_arg V main_arg7,
    layer_arg V main_arg8]

end Cert.ReferenceIdeal.Hand

end
-- ==== Proof.RefAgg.lean ====
import proofs.«403238_j23510650978598_3_alg».proof.Proof.RefAggDef
import proofs.«403238_j23510650978598_3_alg».proof.Proof.Stages
import proofs.«403238_j23510650978598_3_alg».proof.Proof.Decode
import proofs.«403238_j23510650978598_3_alg».proof.Proof.LibScatter
import proofs.«403238_j23510650978598_3_alg».proof.Proof.LibPlainDot
import Idealize.ShloMosaic.Lib.KernelVsHost
import Idealize.ShloMosaic.Lib.IdealHost

noncomputable section

namespace Cert.ReferenceIdeal.Hand

open Cert.ReferenceIdeal Idealize.ShloMosaic Idealize.ShloMosaic.ValueIdx
open Cert.ReferenceIdeal.Facts₀
open scoped BigOperators

-- A broadcast keeps the result's coordinate along every axis of the operand that is not a unit axis.
theorem bcast_apply {α : Type} {s t : Shape} {dims : Fin s.rank → Fin t.rank} (h : s.BroadcastsInDim t dims)
    (x : s.Idx → α) (j : t.Idx) (k : s.Idx) (hk : ∀ a, (k a).val = (j (dims a)).val ∨ s.size a = 1) :
    broadcastInDim t dims h x j = x k :=
  broadcastInDim_apply dims h x j k fun a => by
    split
    · next h1 => exact Nat.lt_one_iff.mp (lt_of_lt_of_eq (k a).isLt h1)
    · next h1 => exact (hk a).resolve_right h1

theorem bcastRow_apply {α : Type} {n : Nat} (h : (⟨1, ![n]⟩ : Shape).BroadcastsInDim ⟨2, ![1, n]⟩ ![1])
    (x : (⟨1, ![n]⟩ : Shape).Idx → α) (i : Fin 1) (q : Fin n) :
    broadcastInDim ⟨2, ![1, n]⟩ ![1] h x (ix2 i q) = x (ix1 q) :=
  bcast_apply h x _ _ fun | ⟨0, _⟩ => .inl rfl

theorem bcastCol_apply {α : Type} {m : Nat} (h : (⟨1, ![m]⟩ : Shape).BroadcastsInDim ⟨2, ![m, 1]⟩ ![0])
    (x : (⟨1, ![m]⟩ : Shape).Idx → α) (r : Fin m) (c : Fin 1) :
    broadcastInDim ⟨2, ![m, 1]⟩ ![0] h x (ix2 r c) = x (ix1 r) :=
  bcast_apply h x _ _ fun | ⟨0, _⟩ => .inl rfl

theorem bcastCols_apply {α : Type} {m n : Nat} (h : (⟨2, ![m, 1]⟩ : Shape).BroadcastsInDim ⟨2, ![m, n]⟩ ![0, 1])
    (y : (⟨2, ![m, 1]⟩ : Shape).Idx → α) (r : Fin m) (q : Fin n) :
    broadcastInDim ⟨2, ![m, n]⟩ ![0, 1] h y (ix2 r q) = y (ix2 r (0 : Fin 1)) :=
  bcast_apply h y _ _ fun | ⟨0, _⟩ => .inl rfl | ⟨1, _⟩ => .inr rfl

-- A choice on a decided proposition's bit is the choice on the proposition.
theorem select_ofBool {α : Type} (p : Prop) [Decidable p] (a b : α) :
    Scalar.select (BitVec.ofBool (decide p)) a b = if p then a else b := by
  by_cases h : p
  · rw [if_pos h, decide_eq_true h]; exact if_pos rfl
  · rw [if_neg h, decide_eq_false h]; exact if_neg (by decide)

-- Before the seam a concatenation reads its first piece, from the seam on its second piece at the shifted position.
theorem catRow_apply (r : Fin 2) (hs : S2x800000.Slices ![r.val, 0] S1x800000) (ei : IVec S2x800000 32)
    (e : Fin 850000) :
    concatenate S850000 0
      [⟨S800000, shapeCast S800000 (extractStridedSlice S1x800000 ![r.val, 0] ei hs) shapeCasts_S1x800000_S800000⟩,
        ⟨S50000, loopWords⟩] concatenates_S800000_S50000_S850000_d0 (ix1 e)
      = Cert.GcnPool.edgeWord ei r e := by
  unfold Cert.GcnPool.edgeWord
  by_cases h : e.val < 800000
  · rw [dif_pos h,
      concatenate_pair_apply_left (t := S850000) (s₁ := S800000) (s₂ := S50000) (0 : Fin 1) _ _
        concatenates_S800000_S50000_S850000_d0 (ix1 e) rfl
        (ix1 (⟨e.val, h⟩ : Fin 800000)) (fun | ⟨0, _⟩ => rfl),
      shapeCast_apply _ shapeCasts_S1x800000_S800000 (ix1 (⟨e.val, h⟩ : Fin 800000))
        (ix2 (0 : Fin 1) (⟨e.val, h⟩ : Fin 800000))
        (by rw [Shape.rowMajor_val_two, Shape.rowMajor_val_one]; show 0 * 800000 + e.val = e.val; omega)]
    exact extractStridedSlice_apply _ ei hs _ (ix2 r (⟨e.val, h⟩ : Fin 800000)) fun
      | ⟨0, _⟩ => rfl
      | ⟨1, _⟩ => (Nat.zero_add _).symm
  · have he : e.val - 800000 < 50000 := by have := e.isLt; omega
    rw [dif_neg h,
      concatenate_pair_apply_right (t := S850000) (s₁ := S800000) (s₂ := S50000) (0 : Fin 1) _ _
        concatenates_S800000_S50000_S850000_d0 (ix1 e) rfl rfl
        (ix1 (⟨e.val - 800000, he⟩ : Fin 50000))
        (fun b hb => absurd (Subsingleton.elim _ _) hb)
        (by show e.val - 800000 + 800000 = e.val; omega)]
    rfl

theorem srcWords_apply (ei : IVec S2x800000 32) (e : Fin 850000) :
    srcWords ei (ix1 e) = Cert.GcnPool.srcWord ei e :=
  catRow_apply 0 slices_S2x800000_S1x800000_0_0 ei e

theorem dstWords_apply (ei : IVec S2x800000 32) (e : Fin 850000) :
    dstWords ei (ix1 e) = Cert.GcnPool.dstWord ei e :=
  catRow_apply 1 slices_S2x800000_S1x800000_1_0 ei e

theorem wrapWords_apply (w : IVec S850000 32) (j : S850000.Idx) :
    wrapWords w j = Cert.GcnPool.wrapWord (w j) := by
  unfold Cert.GcnPool.wrapWord
  rw [← show (0#32 : BitVec 32).toInt = 0 by decide]
  exact select_ofBool _ _ _

theorem asColumn_apply (w : IVec S850000 32) (e : Fin 850000) :
    asColumn w (ix2 e (0 : Fin 1)) = w (ix1 e) :=
  bcastCol_apply _ w e 0

theorem startWord_apply (w : IVec S850000 32) (e : Fin 850000) :
    asColumn (wrapWords w) (ix2 e (0 : Fin 1)) = Cert.GcnPool.wrapWord (w (ix1 e)) := by
  rw [asColumn_apply, wrapWords_apply]

theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

theorem degrees_apply (ei : IVec S2x800000 32) (n : Fin 50000) :
    degrees ei (ix1 n) = Cert.GcnPool.degOf ei n := by
  unfold degrees Cert.GcnPool.degOf
  rw [scatterAdd_ideal]
  refine (Cert.Gcn.scatterAddVec_apply scatter_S50000_S850000x1_S850000_n_0_0_1_wf _ _ _ n).trans ?_
  rw [broadcastInDim_scalar_apply]
  exact congrArg (Cert.GcnPool.zeroWord + ·) (Finset.sum_congr
    (Finset.filter_congr fun e _ => by rw [startWord_apply, dstWords_apply])
    fun e _ => broadcastInDim_scalar_apply _ _ _)

theorem select_ogt {α : Type} (d z : EReal) (a b : α) :
    Scalar.select (FloatOps.cmpf (F := Ideal) (φ := .f32) .ogt d z) a b = if z < d then a else b :=
  select_ofBool _ a b

theorem hostRsqrt_apply {s : Shape} (d : FVec Ideal s .f32) (j : s.Idx) : Host.rsqrt d j = Ideal.rsqrt (d j) := rfl

theorem degScales_apply (ei : IVec S2x800000 32) (n : Fin 50000) :
    degScales ei (ix1 n) = Cert.GcnPool.dinvOf ei n := by
  unfold degScales Cert.GcnPool.dinvOf
  rw [select_apply, cmpf_apply, select_ogt, hostRsqrt_apply, broadcastInDim_scalar_apply, broadcastInDim_scalar_apply,
    degrees_apply, id_eq, constant_apply]

-- A gather reads the row its start index names, and the start index of an edge is its wrapped word.
theorem nodeAt_apply {α : Type} (f : S50000.Idx → α) (w : IVec S850000 32) (e : Fin 850000) :
    Host.gather gather_S50000_S850000x1_S850000_n_0_n_n_0_1_1 f (asColumn (wrapWords w)) (ix1 e)
      = f (ix1 (Cert.GcnPool.rowOf (w (ix1 e)))) :=
  (Cert.Gcn.gatherVec_apply (by decide : 0 < 50000) gather_S50000_S850000x1_S850000_n_0_n_n_0_1_1_wf f _ (ix1 e)).trans
    (congrArg (fun v => f (ix1 (Cert.Gcn.crow 50000 (by decide) v))) (startWord_apply w e))

theorem rowAt_apply {α : Type} (f : S50000x256.Idx → α) (w : IVec S850000 32) (e : Fin 850000) (q : Fin 256) :
    Host.gather gather_S50000x256_S850000x1_S850000x256_1_0_n_n_0_1_1256 f (asColumn (wrapWords w)) (ix2 e q)
      = f (ix2 (Cert.GcnPool.rowOf (w (ix1 e))) q) :=
  (Cert.Gcn.gatherRows_apply (by decide : 0 < 50000) gather_S50000x256_S850000x1_S850000x256_1_0_n_n_0_1_1256_wf f _
    (ix2 e q)).trans (congrArg (fun v => f (ix2 (Cert.Gcn.crow 50000 (by decide) v) q)) (startWord_apply w e))

theorem edgeScales_apply (ei : IVec S2x800000 32) (e : Fin 850000) :
    edgeScales ei (ix1 e)
      = Cert.GcnPool.dinvOf ei (Cert.GcnPool.srcRow ei e) * Cert.GcnPool.dinvOf ei (Cert.GcnPool.dstRow ei e) := by
  unfold edgeScales
  rw [mulf_apply, nodeAt_apply, nodeAt_apply, degScales_apply, degScales_apply, srcWords_apply, dstWords_apply]

theorem dot_apply (x : FVec Ideal S50000x256 .f32) (W : FVec Ideal S256x256 .f32) (i : Fin 50000) (q : Fin 256) :
    Host.dotGeneral dot_S50000x256_S256x256_S50000x256_1_0_0_1_n_n none x W (ix2 i q)
      = Cert.GcnPool.xw (fun i k => x (ix2 i k)) (fun k q => W (ix2 k q)) i q :=
  Cert.PlainDot.dotGeneral_apply _ rfl none .single x W (ix2 i q)

theorem messages_apply (x : FVec Ideal S50000x256 .f32) (ei : IVec S2x800000 32) (W : FVec Ideal S256x256 .f32)
    (e : Fin 850000) (q : Fin 256) :
    messages x ei W (ix2 e q)
      = Cert.GcnPool.xw (fun i k => x (ix2 i k)) (fun k q => W (ix2 k q)) (Cert.GcnPool.srcRow ei e) q
        * (Cert.GcnPool.dinvOf ei (Cert.GcnPool.srcRow ei e) * Cert.GcnPool.dinvOf ei (Cert.GcnPool.dstRow ei e)) := by
  unfold messages
  rw [mulf_apply, bcastCols_apply, bcastCol_apply, edgeScales_apply, rowAt_apply, srcWords_apply, dot_apply]

-- Onto zeros, a scatter-add collects exactly the updates whose index word names the node.
theorem refAgg_apply (x : FVec Ideal S50000x256 .f32) (ei : IVec S2x800000 32) (W : FVec Ideal S256x256 .f32)
    (b : FVec Ideal S256 .f32) (n : Fin 50000) (q : Fin 256) :
    refAgg x ei W b (ix2 n q)
      = Cert.GcnPool.aggPerEdge (Cert.GcnPool.xw (fun i k => x (ix2 i k)) (fun k q => W (ix2 k q))) (fun q => b (ix1 q))
          (Cert.GcnPool.srcRow ei) (Cert.GcnPool.dstWord ei) (Cert.GcnPool.dinvOf ei)
          (fun e => Cert.GcnPool.dinvOf ei (Cert.GcnPool.dstRow ei e)) n q := by
  unfold refAgg Cert.GcnPool.aggPerEdge
  rw [addf_apply, broadcastInDim_oneRow_apply, bcastRow_apply, scatterAdd_ideal]
  refine congrArg (· + b (ix1 q))
    ((Cert.Gcn.scatterAddRows_apply scatter_S50000x256_S850000x1_S850000x256_1_0_0_1_wf _ _ _ n q).trans ?_)
  rw [broadcastInDim_scalar_apply, constant_apply, Ideal.ofBits_zero_f32, zero_add]
  exact Finset.sum_congr (Finset.filter_congr fun e _ => by rw [asColumn_apply, dstWords_apply])
    fun e _ => messages_apply x ei W e q

end Cert.ReferenceIdeal.Hand

end
-- ==== Proof.RefTail.lean ====
import proofs.«403238_j23510650978598_3_alg».proof.Proof.RefTailDef
import proofs.«403238_j23510650978598_3_alg».proof.Proof.RefAgg
import proofs.«403238_j23510650978598_3_alg».proof.Proof.Laws

noncomputable section

namespace Cert.ReferenceIdeal.Hand

open Cert.ReferenceIdeal Cert.ReferenceIdeal.Gen Idealize.ShloMosaic Idealize.ShloMosaic.ValueIdx
open scoped BigOperators

-- The index a reduction over the rows rebuilds is the row's coordinate put back in front.
theorem lift_col {m n : Nat} (h : (⟨2, ![m, n]⟩ : Shape).Reduces [0] ⟨1, ![n]⟩) (q : Fin n)
    (r : Fin ((⟨2, ![m, n]⟩ : Shape).size 0)) :
    h.lift (ix1 q) r = ix2 (⟨r.val, r.isLt⟩ : Fin m) q :=
  funext fun | ⟨0, _⟩ => Fin.ext rfl | ⟨1, _⟩ => Fin.ext rfl

theorem lift_row {m n : Nat} (h : (⟨2, ![m, n]⟩ : Shape).Reduces [1] ⟨1, ![m]⟩) (r : Fin m)
    (q : Fin ((⟨2, ![m, n]⟩ : Shape).size 1)) :
    h.lift (ix1 r) q = ix2 r (⟨q.val, q.isLt⟩ : Fin n) :=
  funext fun | ⟨0, _⟩ => Fin.ext rfl | ⟨1, _⟩ => Fin.ext rfl

-- Reducing by addition from the zero word sums over the reduced axis's coordinate.
theorem hostSum_apply {s t : Shape} {a : Fin s.rank} (h' : s.ReducesTo [a] t) (h : s.Reduces [a] t) (hu : 0 < S_.numel)
    (x : FVec Ideal s .f32) (j : t.Idx) :
    Host.reduceAdd x (constant (F := Ideal) S_ .f32 0x00000000#32) h' hu j = ∑ k, x (h.lift j k) := by
  show Ideal.hostReduceAdd h' x (Ideal.ofBits .f32 0x00000000#32) j = _
  rw [Ideal.hostReduceAdd_single h' h, Ideal.ofBits_zero_f32, zero_add]

theorem hostExp_apply {s : Shape} (x : FVec Ideal s .f32) (i : s.Idx) : Host.exp x i = Ideal.exp (x i) := rfl

theorem hostLog_apply {s : Shape} (x : FVec Ideal s .f32) (i : s.Idx) : Host.log x i = Ideal.log (x i) := rfl

-- Subtracting a converted integer zero changes nothing.
theorem tailDivisor_apply (i : S_.Idx) : tailDivisor i = Cert.GcnPool.nodesWord := by
  show Ideal.ofBits .f32 0x47435000#32 - (((0#32 : BitVec 32).toInt : ℝ) : EReal) = _
  rw [show (0#32 : BitVec 32).toInt = 0 by decide, Int.cast_zero, EReal.coe_zero, sub_zero]

theorem tailMean_apply (agg : FVec Ideal S50000x256 .f32) (q : Fin 256) :
    tailMean agg (ix1 q) = Cert.GcnPool.meanOf (fun n q => agg (ix2 n q)) q := by
  unfold tailMean Cert.GcnPool.meanOf
  rw [hostDivf_apply, hostSum_apply _ (by decide : S50000x256.Reduces [0] S256)]
  simp only [lift_col]
  rfl

theorem tailDev_apply (agg : FVec Ideal S50000x256 .f32) (n : Fin 50000) (q : Fin 256) :
    tailDev agg (ix2 n q) = agg (ix2 n q) - Cert.GcnPool.meanOf (fun n q => agg (ix2 n q)) q := by
  unfold tailDev Cert.GcnPool.meanOf
  rw [subf_apply, broadcastInDim_oneRow_apply, hostDivf_apply, bcastRow_apply,
    hostSum_apply _ (by decide : S50000x256.Reduces [0] S256)]
  simp only [lift_col]
  rfl

theorem guard_eq_one : Ideal.cmp .ogt Cert.GcnPool.nodesWord (Ideal.ofBits .f32 0x00000000#32) = 1#1 := by
  rw [Ideal.ofBits_zero_f32, Cert.GcnPool.nodesWord_eq]
  exact congrArg BitVec.ofBool (decide_eq_true (by exact_mod_cast (by norm_num : (0 : ℝ) < 50000)))

-- The node count is positive, so the choice keeps the quotient.
theorem tailVar_apply (agg : FVec Ideal S50000x256 .f32) (q : Fin 256) :
    tailVar agg (ix1 q) = Cert.GcnPool.varCentered (fun n q => agg (ix2 n q)) q := by
  show Scalar.select (Ideal.cmp .ogt (tailDivisor _) (Ideal.ofBits .f32 0x00000000#32))
      (Ideal.div (Host.reduceAdd (mulf (tailDev agg) (tailDev agg)) (constant (F := Ideal) S_ .f32 0x00000000#32)
        reducesTo_S50000x256_S256_d0 h_S_ (ix1 q)) (tailDivisor _))
      (Ideal.ofBits .f32 0x7FC00000#32) = _
  rw [tailDivisor_apply, guard_eq_one, select_one, hostSum_apply _ (by decide : S50000x256.Reduces [0] S256)]
  simp only [lift_col, mulf_apply, tailDev_apply]
  rfl

theorem tailAct_apply (agg : FVec Ideal S50000x256 .f32) (ga be : FVec Ideal S256 .f32) (n : Fin 50000) (q : Fin 256) :
    tailAct agg ga be (ix2 n q)
      = Cert.GcnPool.actOf (fun n q => agg (ix2 n q)) (Cert.GcnPool.meanOf fun n q => agg (ix2 n q))
          (Cert.GcnPool.varCentered fun n q => agg (ix2 n q)) (fun q => ga (ix1 q)) (fun q => be (ix1 q)) n q := by
  unfold tailAct tailNorm
  rw [maximumf_apply, addf_apply, mulf_apply, mulf_apply, subf_apply]
  iterate 4 rw [broadcastInDim_oneRow_apply, bcastRow_apply]
  show max (ga (ix1 q) * (agg (ix2 n q) - tailMean agg (ix1 q))
      * Ideal.rsqrt (tailVar agg (ix1 q) + Ideal.ofBits .f32 0x3727C5AC#32) + be (ix1 q))
      (Ideal.ofBits .f32 0x00000000#32) = _
  rw [tailMean_apply, tailVar_apply, Ideal.ofBits_zero_f32]
  rfl

-- Onto zeros, a scatter-add collects exactly the rows whose word names the graph.
theorem tailSums_apply (agg : FVec Ideal S50000x256 .f32) (bt : IVec S50000 32) (ga be : FVec Ideal S256 .f32)
    (g : Fin 64) (q : Fin 256) :
    tailSums agg bt ga be (ix2 g q)
      = Cert.GcnPool.poolMembers (fun n => bt (ix1 n)) (fun n q => tailAct agg ga be (ix2 n q)) g q := by
  refine (Cert.Gcn.scatterAddRows_apply scatter_S64x256_S50000x1_S50000x256_1_0_0_1_wf _ _ _ g q).trans ?_
  rw [broadcastInDim_scalar_apply, constant_apply, Ideal.ofBits_zero_f32, zero_add]
  exact Finset.sum_congr (Finset.filter_congr fun e _ => by rw [bcastCol_apply]) fun _ _ => rfl

theorem tailCounts_apply (bt : IVec S50000 32) (g : Fin 64) :
    tailCounts bt (ix1 g)
      = max (Cert.GcnPool.countOf (fun n => bt (ix1 n)) Cert.GcnPool.oneWord g) Cert.GcnPool.oneWord := by
  refine congrArg (max · Cert.GcnPool.oneWord)
    ((Cert.Gcn.scatterAddVec_apply scatter_S64_S50000x1_S50000_n_0_0_1_wf _ _ _ g).trans ?_)
  rw [broadcastInDim_scalar_apply, constant_apply, Ideal.ofBits_zero_f32, zero_add]
  exact Finset.sum_congr (Finset.filter_congr fun e _ => by rw [bcastCol_apply]) fun _ _ => rfl

theorem tailLogits_apply (agg : FVec Ideal S50000x256 .f32) (bt : IVec S50000 32) (ga be : FVec Ideal S256 .f32)
    (Wf : FVec Ideal S60x256 .f32) (bf : FVec Ideal S60 .f32) (g : Fin 64) (k : Fin 60) :
    tailLogits agg bt ga be Wf bf (ix2 g k)
      = Cert.GcnPool.logitsOf
          (Cert.GcnPool.meanPool (fun g q => tailSums agg bt ga be (ix2 g q))
            (Cert.GcnPool.countOf (fun n => bt (ix1 n)) Cert.GcnPool.oneWord) Cert.GcnPool.oneWord)
          (fun k q => Wf (ix2 k q)) (fun k => bf (ix1 k)) g k := by
  unfold tailLogits Cert.GcnPool.logitsOf
  rw [addf_apply, broadcastInDim_oneRow_apply, bcastRow_apply]
  refine congrArg (· + bf (ix1 k))
    ((Cert.PlainDot.dotGeneral_apply dot_S64x256_S256x60_S64x60_1_0_0_1_n_n rfl none .single _ _ (ix2 g k)).trans ?_)
  refine Finset.sum_congr rfl fun q _ => ?_
  rw [hostDivf_apply, bcastCols_apply, bcastCol_apply, tailCounts_apply,
    transpose_apply [1, 0] Wf _ _ (ix2 k q) fun | ⟨0, _⟩ => rfl | ⟨1, _⟩ => rfl]
  rfl

-- A fold of the maximum from the bottom element is the supremum, and one more maximum against bottom changes nothing.
theorem tailShifted_apply (l : FVec Ideal S64x60 .f32) (g : Fin 64) (k : Fin 60) :
    tailShifted l (ix2 g k) = l (ix2 g k) - Finset.univ.sup fun k' : Fin 60 => l (ix2 g k') := by
  unfold tailShifted
  have h : S64x60.Reduces [1] S64 := by decide
  rw [subf_apply, bcastCols_apply, bcastCol_apply, maximumf_apply,
    Host.reduce_eq_fold_single FloatOps.maximumf l _ reducesTo_S64x60_S64_d1 h h_S_,
    show l ∘ h.lift (ix1 g) = fun k : Fin 60 => l (ix2 g k) from funext fun k => congrArg l (lift_row h g k)]
  show _ - max (Ideal.ofBits .f32 0xFF800000#32) (Finset.fold _ (Ideal.ofBits .f32 0xFF800000#32) _ _) = _
  rw [show Ideal.ofBits .f32 0xFF800000#32 = (⊥ : EReal) by simp [Ideal.ofBits, Ideal.ieee], max_bot_left]
  rfl

theorem tailLogSoftmax_apply (l : FVec Ideal S64x60 .f32) (g : Fin 64) (k : Fin 60) :
    tailLogSoftmax l (ix2 g k) = Cert.GcnPool.logSoftmax (fun g k => l (ix2 g k)) g k := by
  unfold tailLogSoftmax Cert.GcnPool.logSoftmax
  rw [subf_apply, bcastCols_apply, hostLog_apply, bcastCol_apply, hostSum_apply _ (by decide : S64x60.Reduces [1] S64)]
  simp only [lift_row, hostExp_apply, tailShifted_apply]
  rfl

-- Each stretch rewrites to its stage, also under the binders of the stages that consume it.
theorem refTail_apply (agg : FVec Ideal S50000x256 .f32) (bt : IVec S50000 32) (ga be : FVec Ideal S256 .f32)
    (Wf : FVec Ideal S60x256 .f32) (bf : FVec Ideal S60 .f32) (g : Fin 64) (k : Fin 60) :
    refTail agg bt ga be Wf bf (ix2 g k)
      = Cert.GcnPool.logSoftmax (Cert.GcnPool.logitsOf
          (Cert.GcnPool.meanPool
            (Cert.GcnPool.poolMembers (fun n => bt (ix1 n))
              (Cert.GcnPool.actOf (fun n q => agg (ix2 n q)) (Cert.GcnPool.meanOf fun n q => agg (ix2 n q))
                (Cert.GcnPool.varCentered fun n q => agg (ix2 n q)) (fun q => ga (ix1 q)) (fun q => be (ix1 q))))
            (Cert.GcnPool.countOf (fun n => bt (ix1 n)) Cert.GcnPool.oneWord) Cert.GcnPool.oneWord)
          (fun k q => Wf (ix2 k q)) (fun k => bf (ix1 k))) g k := by
  unfold refTail
  rw [tailLogSoftmax_apply]
  simp only [tailLogits_apply, tailSums_apply, tailAct_apply]

end Cert.ReferenceIdeal.Hand

end
-- ==== Proof.PreFinite.lean ====
import proofs.«403238_j23510650978598_3_alg».proof.Defs
import proofs.«403238_j23510650978598_3_alg».proof.Proof.Gen.Pre_finite_inputs
import proofs.«403238_j23510650978598_3_alg».proof.Proof.Gen.KernelIdeal
import Idealize.ShloMosaic.Lib.ReduceAll
import Idealize.ShloMosaic.Lib.ValueIdx

noncomputable section

namespace Cert.KernelIdeal.Hand

open Idealize.ShloMosaic Idealize.SL.Sem Idealize.ShloMosaic.ValueIdx
open Cert.Pre_finite_inputs (S_ fn fn_part1)

-- At either infinity the larger of a value and its negation is the top element, which the infinity word denotes.
theorem real_of_word (x : EReal)
    (hx : Ideal.cmp .olt (max x (-x)) (Ideal.ofBits .f32 0x7F800000#32) = 1#1) : ∃ r : ℝ, x = r := by
  induction x using EReal.rec with
  | coe r => exact ⟨r, rfl⟩
  | bot | top => simp [Ideal.cmp, Ideal.ofBits, Ideal.ieee] at hx

instance : Subsingleton S_.Idx := ⟨fun a b => funext fun d => d.elim0⟩

variable (m : (ℓ : Loc nD τ sig) → Buf (Elt Ideal) ℓ) (c : Dev nD)
  (h : Cert.Pre_KernelIdeal (hPre_finite_inputs := Cert.Pre_finite_inputs.Gen.facts) m)
include h

-- The precondition is a left-nested conjunction of one word per float argument; each word is a conjunction over the entries.
theorem first_three_finite :
    (∀ i : S50000x256.Idx, ∃ r : ℝ, (m ((c.tc : Thread nD τ).loc main_arg0) : S50000x256.Idx → EReal) i = ((r : ℝ) : EReal))
    ∧ (∀ i : S256x256.Idx, ∃ r : ℝ, (m ((c.tc : Thread nD τ).loc main_arg3) : S256x256.Idx → EReal) i = ((r : ℝ) : EReal))
    ∧ (∀ i : S256.Idx, ∃ r : ℝ, (m ((c.tc : Thread nD τ).loc main_arg4) : S256.Idx → EReal) i = ((r : ℝ) : EReal)) := by
  have h0 := congrFun (h c) ix0
  dsimp only [fn, fn_part1] at h0
  obtain ⟨h01, hb⟩ := IntOp.andi_eq_one.1
    (IntOp.andi_eq_one.1 (IntOp.andi_eq_one.1 (IntOp.andi_eq_one.1 (IntOp.andi_eq_one.1 h0).1).1).1).1
  obtain ⟨hx, hw⟩ := IntOp.andi_eq_one.1 h01
  exact ⟨fun i => real_of_word _ (Host.reduce_andi_all _ _ _ _ ix0 hx i),
    fun i => real_of_word _ (Host.reduce_andi_all _ _ _ _ ix0 hw i),
    fun i => real_of_word _ (Host.reduce_andi_all _ _ _ _ ix0 hb i)⟩

theorem features_finite : ∀ i : S50000x256.Idx, ∃ r : ℝ,
    (m ((c.tc : Thread nD τ).loc main_arg0) : S50000x256.Idx → EReal) i = ((r : ℝ) : EReal) :=
  (first_three_finite m c h).1

theorem weights_finite : ∀ i : S256x256.Idx, ∃ r : ℝ,
    (m ((c.tc : Thread nD τ).loc main_arg3) : S256x256.Idx → EReal) i = ((r : ℝ) : EReal) :=
  (first_three_finite m c h).2.1

theorem bias_finite : ∀ i : S256.Idx, ∃ r : ℝ,
    (m ((c.tc : Thread nD τ).loc main_arg4) : S256.Idx → EReal) i = ((r : ℝ) : EReal) :=
  (first_three_finite m c h).2.2

end Cert.KernelIdeal.Hand

end
-- ==== Proof.Claims.lean ====
import proofs.«403238_j23510650978598_3_alg».proof.Proof.KW.Run
import proofs.«403238_j23510650978598_3_alg».proof.Proof.KI.Result
import proofs.«403238_j23510650978598_3_alg».proof.Proof.KI.RunValue
import proofs.«403238_j23510650978598_3_alg».proof.Proof.RefOut
import proofs.«403238_j23510650978598_3_alg».proof.Proof.RefAgg
import proofs.«403238_j23510650978598_3_alg».proof.Proof.RefTail
import proofs.«403238_j23510650978598_3_alg».proof.Proof.PreFinite

noncomputable section

namespace Cert.Proof.Claims

open Idealize.ShloMosaic Idealize.ShloMosaic.TcCoe Idealize.SL.Sem Idealize.ShloMosaic.ValueIdx
open Cert.ReferenceIdeal.Hand (refTail refAgg refTail_apply refAgg_apply run_main out_eq arg_eq)
open Cert.KernelIdeal.Hand (outs)

theorem frame_word : Cert.frame_Kernel := fun m ρ _ => Cert.Kernel.Hand.frame m ρ

theorem frame_exact : Cert.frame_KernelIdeal := fun m ρ _ => Cert.KernelIdeal.Hand.frame m ρ

open Cert.ReferenceIdeal in
-- No operation's result is an argument's: the run leaves the nine arguments as launched.
theorem frame_reference : Cert.frame_ReferenceIdeal := fun m ρ _ =>
  (θ_run defs _ _).mono
    (fun r h c => ⟨(h c _).trans (arg_eq _ main_arg0), (h c _).trans (arg_eq _ main_arg1),
      (h c _).trans (arg_eq _ main_arg2), (h c _).trans (arg_eq _ main_arg3), (h c _).trans (arg_eq _ main_arg4),
      (h c _).trans (arg_eq _ main_arg5), (h c _).trans (arg_eq _ main_arg6), (h c _).trans (arg_eq _ main_arg7),
      (h c _).trans (arg_eq _ main_arg8)⟩)
    (run_main (F := Ideal) m ρ)

open Cert.KernelIdeal in
-- Both results, read at an entry, are one composition of the network's stages.
theorem result_agrees (m : (ℓ : Loc nD τ sig) → Buf (Elt Ideal) ℓ) (hpre : Cert.Pre_KernelIdeal m) (c : Dev nD) :
    refTail
        (refAgg (m ((c.tc : Thread nD τ).loc main_arg0)) (m ((c.tc : Thread nD τ).loc main_arg1))
          (m ((c.tc : Thread nD τ).loc main_arg3)) (m ((c.tc : Thread nD τ).loc main_arg4)))
        (m ((c.tc : Thread nD τ).loc main_arg2)) (m ((c.tc : Thread nD τ).loc main_arg5))
        (m ((c.tc : Thread nD τ).loc main_arg6)) (m ((c.tc : Thread nD τ).loc main_arg7))
        (m ((c.tc : Thread nD τ).loc main_arg8))
      = outs m 10 main_v56 c := by
  funext j
  obtain ⟨g, k, rfl⟩ : ∃ (g : Fin 64) (k : Fin 60), j = ix2 g k := ⟨j 0, j 1, eq_ix2 j⟩
  rw [refTail_apply]
  simp only [refAgg_apply]
  exact (Hand.result_value m c (fun i k => Hand.features_finite m c hpre (ix2 i k))
    (fun k q => Hand.weights_finite m c hpre (ix2 k q)) (fun q => Hand.bias_finite m c hpre (ix1 q)) g k).symm

open Cert.ReferenceIdeal in
-- The reference's result is its term of its own arguments, which agree with the kernel's.
theorem algebraic : Cert.algebraic_KernelIdeal_ReferenceIdeal := by
  intro m ρ m' ρ' hpre hagree
  refine ⟨fun c => outs m 10 Cert.KernelIdeal.main_v56 c, Cert.KernelIdeal.Hand.run m ρ,
    (θ_run defs _ _).mono (fun r h c => ⟨?_, (h c _).trans (arg_eq _ main_arg0), (h c _).trans (arg_eq _ main_arg1),
      (h c _).trans (arg_eq _ main_arg2), (h c _).trans (arg_eq _ main_arg3), (h c _).trans (arg_eq _ main_arg4),
      (h c _).trans (arg_eq _ main_arg5), (h c _).trans (arg_eq _ main_arg6), (h c _).trans (arg_eq _ main_arg7),
      (h c _).trans (arg_eq _ main_arg8)⟩) (run_main (F := Ideal) m' ρ')⟩
  obtain ⟨h0, h1, h2, h3, h4, h5, h6, h7, h8⟩ := hagree c
  have e := result_agrees m hpre c
  rw [← h0, ← h1, ← h2, ← h3, ← h4, ← h5, ← h6, ← h7, ← h8] at e
  exact (h c main_v89).trans ((out_eq _).trans e)

end Cert.Proof.Claims

end
-- ==== Proof.lean ====
import proofs.«403238_j23510650978598_3_alg».proof.Defs
import proofs.«403238_j23510650978598_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_word, Claims.frame_exact, Claims.frame_reference, trivial, Claims.algebraic⟩

end Cert.Proof

end
